-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩
abbrev S8x2048x2048 : Shape := ⟨3, ![8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  bcast_S_S2048x2048 : S_.BroadcastsInDim S2048x2048 (![] : Fin 0 → Fin S2048x2048.rank)
  reducesTo_S8x2048x2048_S8x2048_d2 : S8x2048x2048.ReducesTo [2] S8x2048
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  reducesTo_S8x2048x1_S_d0_1_2 : S8x2048x1.ReducesTo [0, 1, 2] S_
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]

variable [Facts]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def fn_part3 {F : FTy → Type} [FloatOps F] (main_v28 : IVec S_ 1) (main_v54 : FVec F S8x2048x1 .f32) : IVec S_ 1 :=
  let main_cst_15 : FVec F S_ .f32 := constant S_ .f32 0x00000000#32
  let main_v55 : FVec F S8x2048x1 .f32 := broadcastInDim S8x2048x1 ![] bcast_S_S8x2048x1 main_cst_15
  let main_v56 : IVec S8x2048x1 1 := cmpf .une main_v54 main_v55
  let main_c_16 : IVec S_ 1 := constantI S_ 1 1#1
  let main_v57 : IVec S_ 1 := (fun x v => Host.reduce IntOp.andi x v reducesTo_S8x2048x1_S_d0_1_2 h_S_) main_v56 main_c_16
  let main_v58 : IVec S_ 1 := andi main_v28 main_v57
  main_v58

def fn_part2 {F : FTy → Type} [FloatOps F] (main_v28 : IVec S_ 1) (main_v31 : FVec F S8x2048x1024 .f32) (main_v32 : FVec F S8x2048x1024 .f32) (main_v33 : FVec F S8x2048x1024 .f32) : IVec S_ 1 :=
  let main_v34 : FVec F S8x2048x1024 .f32 := mulf main_v32 main_v33
  let main_v35 : FVec F S8x2048x2048 .f32 := (fun l r => Host.dotGeneral dot_S8x2048x1024_S8x2048x1024_S8x2048x2048_2_2_1_1_0_0 none l r) main_v31 main_v34
  let main_v36 : IVec S2048 32 := iotaInDim S2048 32 0
  let main_v37 : IVec S2048x1 32 := broadcastInDim S2048x1 ![0] bcast_S2048_S2048x1_0 main_v36
  let main_v38 : IVec S1x2048 32 := broadcastInDim S1x2048 ![1] bcast_S2048_S1x2048_1 main_v36
  let main_v39 : IVec S2048x2048 32 := broadcastInDim S2048x2048 ![0, 1] bcast_S2048x1_S2048x2048_0_1 main_v37
  let main_v40 : IVec S2048x2048 32 := broadcastInDim S2048x2048 ![0, 1] bcast_S1x2048_S2048x2048_0_1 main_v38
  let main_v41 : IVec S2048x2048 1 := cmpi .sge main_v39 main_v40
  let main_v42 : FVec F S2048x2048 .f32 := uitofp .f32 main_v41
  let main_v43 : FVec F S1x2048x2048 .f32 := broadcastInDim S1x2048x2048 ![1, 2] bcast_S2048x2048_S1x2048x2048_1_2 main_v42
  let main_v44 : FVec F S8x2048x2048 .f32 := broadcastInDim S8x2048x2048 ![0, 1, 2] bcast_S1x2048x2048_S8x2048x2048_0_1_2 main_v43
  let main_v45 : FVec F S8x2048x2048 .f32 := mulf main_v35 main_v44
  let main_cst_12 : FVec F S_ .f32 := constant S_ .f32 0x3F800000#32
  let main_v46 : FVec F S2048x2048 .f32 := broadcastInDim S2048x2048 ![] bcast_S_S2048x2048 main_cst_12
  let main_v47 : FVec F S2048x2048 .f32 := subf main_v46 main_v42
  let main_v48 : FVec F S1x2048x2048 .f32 := broadcastInDim S1x2048x2048 ![1, 2] bcast_S2048x2048_S1x2048x2048_1_2 main_v47
  let main_v49 : FVec F S8x2048x2048 .f32 := broadcastInDim S8x2048x2048 ![0, 1, 2] bcast_S1x2048x2048_S8x2048x2048_0_1_2 main_v48
  let main_v50 : FVec F S8x2048x2048 .f32 := subf main_v45 main_v49
  let main_cst_13 : FVec F S_ .f32 := constant S_ .f32 0x00000000#32
  let main_v51 : FVec F S8x2048 .f32 := (fun x v => Host.reduceAdd x v reducesTo_S8x2048x2048_S8x2048_d2 h_S_) main_v50 main_cst_13
  let main_v52 : FVec F S8x2048x1 .f32 := broadcastInDim S8x2048x1 ![0, 1] bcast_S8x2048_S8x2048x1_0_1 main_v51
  let main_cst_14 : FVec F S_ .f32 := constant S_ .f32 0x3727C5AC#32
  let main_v53 : FVec F S8x2048x1 .f32 := broadcastInDim S8x2048x1 ![] bcast_S_S8x2048x1 main_cst_14
  let main_v54 : FVec F S8x2048x1 .f32 := addf main_v52 main_v53
  fn_part3 (F := F) main_v28 main_v54

def fn_part1 {F : FTy → Type} [FloatOps F] (main_arg0 : FVec F S8x2048x1024 .f32) (main_arg1 : FVec F S1024x1024 .f32) (main_arg2 : FVec F S1024x1024 .f32) (main_arg4 : FVec F S1024x1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S8x2048x1024 .f32 := (fun l r => Host.dotGeneral dot_S8x2048x1024_S1024x1024_S8x2048x1024_2_1_01_0_n_n none l r) main_arg0 main_arg1
  let main_cst_10 : FVec F S_ .f32 := constant S_ .f32 0x3DCCCCCD#32
  let main_v30 : FVec F S8x2048x1024 .f32 := broadcastInDim S8x2048x1024 ![] bcast_S_S8x2048x1024 main_cst_10
  let main_v31 : FVec F S8x2048x1024 .f32 := mulf main_v29 main_v30
  let main_v32 : FVec F S8x2048x1024 .f32 := (fun l r => Host.dotGeneral dot_S8x2048x1024_S1024x1024_S8x2048x1024_2_1_01_0_n_n none l r) main_arg0 main_arg2
  let main_cst_11 : FVec F S_ .f32 := constant S_ .f32 0x3DCCCCCD#32
  let main_v33 : FVec F S8x2048x1024 .f32 := broadcastInDim S8x2048x1024 ![] bcast_S_S8x2048x1024 main_cst_11
  fn_part2 (F := F) main_v28 main_v31 main_v32 main_v33

def fn {F : FTy → Type} [FloatOps F] (main_arg0 : FVec F S8x2048x1024 .f32) (main_arg1 : FVec F S1024x1024 .f32) (main_arg2 : FVec F S1024x1024 .f32) (main_arg3 : FVec F S1024x1024 .f32) (main_arg4 : FVec F S1024x1024 .f32) (main_arg5 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg0 main_arg1 main_arg2 main_arg4 main_arg5 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S_ : Shape := ⟨0, ![]⟩
abbrev S3072x1024 : Shape := ⟨2, ![3072, 1024]⟩
abbrev S1024x3072 : Shape := ⟨2, ![1024, 3072]⟩
abbrev S16384x3072 : Shape := ⟨2, ![16384, 3072]⟩
abbrev S256x1024 : Shape := ⟨2, ![256, 1024]⟩
abbrev S256x3072 : Shape := ⟨2, ![256, 3072]⟩
abbrev S8x2048x3072 : Shape := ⟨3, ![8, 2048, 3072]⟩
abbrev S1x512x1024 : Shape := ⟨3, ![1, 512, 1024]⟩
abbrev S512x1 : Shape := ⟨2, ![512, 1]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S1x1024 : Shape := ⟨2, ![1, 1024]⟩

abbrev nBuf : Space → Nat
  | .hbm => 28
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S3072x1024, .f32⟩
  | .hbm, ⟨14, _⟩ => ⟨S1024x3072, .f32⟩
  | .hbm, ⟨15, _⟩ => ⟨S1024x3072, .bf16⟩
  | .hbm, ⟨16, _⟩ => ⟨S16384x3072, .bf16⟩
  | .hbm, ⟨17, _⟩ => ⟨S8x2048x3072, .bf16⟩
  | .hbm, ⟨18, _⟩ => ⟨S8x2048x1024, .bf16⟩
  | .hbm, ⟨19, _⟩ => ⟨S8x2048x1024, .bf16⟩
  | .hbm, ⟨20, _⟩ => ⟨S8x2048x1024, .bf16⟩
  | .hbm, ⟨21, _⟩ => ⟨S8x2048x1024, .f32⟩
  | .hbm, ⟨22, _⟩ => ⟨S16384x1024, .f32⟩
  | .hbm, ⟨23, _⟩ => ⟨S1024x1024, .f32⟩
  | .hbm, ⟨24, _⟩ => ⟨S1024x1024, .bf16⟩
  | .hbm, ⟨25, _⟩ => ⟨S1x1024, .f32⟩
  | .hbm, ⟨26, _⟩ => ⟨S16384x1024, .f32⟩
  | .hbm, ⟨27, _⟩ => ⟨S8x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x3072, .bf16⟩
  | .local _ .vmem, ⟨3, _⟩ => ⟨S256x3072, .bf16⟩
  | .local _ .vmem, ⟨4, _⟩ => ⟨S256x3072, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .f32⟩
  | .local _ .vmem, ⟨12, _⟩ => ⟨S1x512x1024, .f32⟩
  | .local _ .vmem, ⟨13, _⟩ => ⟨S512x1, .f32⟩
  | .local _ .vmem, ⟨14, _⟩ => ⟨S512x1024, .f32⟩
  | .local _ .vmem, ⟨15, _⟩ => ⟨S256x1024, .f32⟩
  | .local _ .vmem, ⟨16, _⟩ => ⟨S256x1024, .f32⟩
  | .local _ .vmem, ⟨17, _⟩ => ⟨S1024x1024, .bf16⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 4, 4], ![false, false, false]⟩

def k1_cond5 (i : grid1.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_12 : BitVec 32 := 0#32
  let v20 : BitVec 1 := Scalar.cmpi .ne v19 c0_i32_12
  v20

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S8x2048x1024_S16384x1024 : S8x2048x1024.ShapeCasts S16384x1024
  bcast_S_S1024x1024 : S_.BroadcastsInDim S1024x1024 (![] : Fin 0 → Fin S1024x1024.rank)
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S256x3072_S256x3072_0_0 : ∀ a, (![0, 0] : Fin 2 → Nat) a + S256x3072.size a ≤ S256x3072.size a
  h_S256x3072 : 0 < S256x3072.numel
  packedbf16_S256x3072_S256x3072_0_0 : (Rect.unit (s := S256x3072) ![0, 0] S256x3072.size inb_S256x3072_S256x3072_0_0).PackedRows (EltTy.packing .bf16)
  shapeCasts_S16384x3072_S8x2048x3072 : S16384x3072.ShapeCasts S8x2048x3072
  slices_S8x2048x3072_S8x2048x1024_0_0_0 : S8x2048x3072.Slices ![0, 0, 0] S8x2048x1024
  slices_S8x2048x3072_S8x2048x1024_0_0_1024 : S8x2048x3072.Slices ![0, 0, 1024] S8x2048x1024
  slices_S8x2048x3072_S8x2048x1024_0_0_2048 : S8x2048x3072.Slices ![0, 0, 2048] S8x2048x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  reduces_S512x512_S512 : S512x512.Reduces [1] S512
  shapeCasts_S512_S512x1 : S512.ShapeCasts S512x1
  iota_S512x512_d0_w32 : S512x512.Iotas .tc 32 [0]
  iota_S512x512_d1_w32 : S512x512.Iotas .tc 32 [1]
  reduces_S512x1024_S1024 : S512x1024.Reduces [0] S1024
  shapeCasts_S1024_S1x1024 : S1024.ShapeCasts S1x1024
  shapeCasts_S1x1024_S1x1024 : S1x1024.ShapeCasts S1x1024
  broadcasts_S1x1024_S512x1024 : S1x1024.Broadcasts S512x1024
  broadcasts_S512x1_S512x1024 : S512x1.Broadcasts S512x1024
  shapeCasts_S512x1024_S1x512x1024 : S512x1024.ShapeCasts S1x512x1024
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  broadcasts_S1x1024_S256x1024 : S1x1024.Broadcasts S256x1024
  shapeCasts_S16384x1024_S8x2048x1024 : S16384x1024.ShapeCasts S8x2048x1024
  dot_S256x1024_S1024x3072_S256x3072_1_0_0_1_n_n_wf : DotDims.WF S256x1024 S1024x3072 S256x3072 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3072.size a ≤ S16384x3072.size a
  hwx0_2 : ∀ i : grid0.Coords, EltTy.bits .bf16 = 32 ∨ (Rect.block (s := S16384x3072) S256x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .bf16 = 32 ∨ (Rect.block (s := S8x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x2048x1024.size a
  hwx1_1 : ∀ i : grid1.Coords, EltTy.bits .bf16 = 32 ∨ (Rect.block (s := S8x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x2048x1024.size a
  hwx1_2 : ∀ i : grid1.Coords, EltTy.bits .bf16 = 32 ∨ (Rect.block (s := S8x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S8x2048x1024.size a
  hwx1_3 : ∀ i : grid1.Coords, EltTy.bits .f32 = 32 ∨ (Rect.block (s := S8x2048x1024) S1x512x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S16384x1024.size a
  hwx2_0 : ∀ i : grid2.Coords, EltTy.bits .f32 = 32 ∨ (Rect.block (s := S16384x1024) S256x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S16384x1024.size a
  hwx2_3 : ∀ i : grid2.Coords, EltTy.bits .f32 = 32 ∨ (Rect.block (s := S16384x1024) S256x1024.size (cc2_transform_3 i) (hinb2_3 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond5 i == 1#1) | ⟨_ + 4, h⟩ => absurd h (Nat.not_lt.2 (Nat.le_add_left _ _))

abbrev win2_0 : Pipeline.Window sig grid2 :=
  Pipeline.Window.ofSpec (Memref.whole main_v14) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S256x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩
abbrev S8x2048x2048 : Shape := ⟨3, ![8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S_, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x2048, .f32⟩
  | .hbm, ⟨16, _⟩ => ⟨S2048, .i32⟩
  | .hbm, ⟨17, _⟩ => ⟨S2048x1, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S2048x2048, .f32⟩
  | .hbm, ⟨23, _⟩ => ⟨S1x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S1x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  bcast_S_S8x2048x1024 : S_.BroadcastsInDim S8x2048x1024 (![] : Fin 0 → Fin S8x2048x1024.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  bcast_S_S2048x2048 : S_.BroadcastsInDim S2048x2048 (![] : Fin 0 → Fin S2048x2048.rank)
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.K.R0.lean ====
import proofs.«149348_j7679401525936_1_alg».proof.Proof.Gen.Kernel.Launch
import proofs.«149348_j7679401525936_1_alg».proof.Proof.Gen.Kernel.Skeleton
import proofs.«149348_j7679401525936_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x1024 := Rect.unit (s := S256x1024) ![0, 0] S256x1024.size inb_S256x1024_S256x1024_0_0
abbrev r0_1 : Rect S1024x3072 := Rect.unit (s := S1024x3072) ![0, 0] S1024x3072.size inb_S1024x3072_S1024x3072_0_0
abbrev r0_2 : Rect S256x3072 := Rect.unit (s := S256x3072) ![0, 0] S256x3072.size inb_S256x3072_S256x3072_0_0

def out0_2 (x0 : Vec F S256x1024 .f32) (x1 : Vec F S1024x3072 .bf16) : Vec F S256x3072 .bf16 :=
  View.canon [⟨r0_2, k0_pay1 (View.ld x0 r0_0) (View.ld x1 r0_1)⟩]

theorem cover0_2 (p0 : Vec F S256x3072 .bf16) (y : S256x3072.Idx) :
    ∃ pc ∈ ([⟨r0_2, p0⟩] : List (View.Piece (Elt F) S256x3072 .bf16)), y ∈ pc.1.set :=
  View.cover_of_tiled [⟨r0_2, p0⟩] S256x3072.size (by rfl) y

set_option maxHeartbeats 1000000 in
theorem sound_kernel0 (c : Dev nD) (E : Set ℕ) (i : grid0.Coords) (arg1 : Memref sig .tc .vmem S256x1024 .f32) (harg1 : arg1.IsWhole) (arg2 : Memref sig .tc .vmem S1024x3072 .bf16) (harg2 : arg2.IsWhole) (arg3 : Memref sig .tc .vmem S256x3072 .bf16) (harg3 : arg3.IsWhole)
    (x0 : Vec F S256x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
import proofs.«149348_j7679401525936_1_alg».proof.Proof.Gen.Kernel.Launch
import proofs.«149348_j7679401525936_1_alg».proof.Proof.Gen.Kernel.Skeleton
import proofs.«149348_j7679401525936_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := (Scalar.cmpi .ne (Scalar.extui (Scalar.cmpi .slt (BitVec.ofNat 32 (i 2).val) (BitVec.ofNat 32 (i 1).val))) 0#32) = 1#1
theorem hcond1_1 : ∀ t : Fin cfg1.N, cond1_1 (grid1.coords t) ↔ t.val % 4 < t.val / 4 % 4 :=
  (by decide +kernel : ∀ t : Fin grid1.N, cond1_1 (grid1.coords t) ↔ t.val % 4 < t.val / 4 % 4)

abbrev cond1_2 (i : grid1.Coords) : Prop := (Scalar.cmpi .ne (Scalar.extui (Scalar.cmpi .eq (BitVec.ofNat 32 (i 2).val) (BitVec.ofNat 32 (i 1).val))) 0#32) = 1#1
theorem hcond1_2 : ∀ t : Fin cfg1.N, cond1_2 (grid1.coords t) ↔ t.val % 4 = t.val / 4 % 4 :=
  (by decide +kernel : ∀ t : Fin grid1.N, cond1_2 (grid1.coords t) ↔ t.val % 4 = t.val / 4 % 4)

abbrev cond1_3 (i : grid1.Coords) : Prop := (Scalar.cmpi .ne (Scalar.extui (Scalar.cmpi .sgt (BitVec.ofNat 32 (i 2).val) (BitVec.ofNat 32 (i 1).val))) 0#32) = 1#1
theorem hcond1_3 : ∀ t : Fin cfg1.N, cond1_3 (grid1.coords t) ↔ t.val / 4 % 4 < t.val % 4 :=
  (by decide +kernel : ∀ t : Fin grid1.N, cond1_3 (grid1.coords t) ↔ t.val / 4 % 4 < t.val % 4)

abbrev cond1_4 (i : grid1.Coords) : Prop := k1_cond5 i = 1#1
theorem hcond1_4 : ∀ t : Fin cfg1.N, cond1_4 (grid1.coords t) ↔ t.val % 4 = 3 :=
  (by decide +kernel : ∀ t : Fin grid1.N, cond1_4 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_4 (grid1.coords t) → cfg1.idle 3 (grid1.coords t) = true := by decide +kernel
theorem noFlush1_3 : ∀ t : Fin cfg1.N, ¬cond1_4 (grid1.coords t) → (cfg1.win 3).flush t = false := by decide +kernel
theorem liveAt1_3 : ∀ t : Fin cfg1.N, cond1_4 (grid1.coords t) → cfg1.idle 3 (grid1.coords t) = false := by decide +kernel
abbrev VO1_3 : View sig .tc .vmem S1x512x1024 .f32 := (Memref.whole cc1_stg3_0 : Memref sig .tc .vmem S1x512x1024 .f32).view
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
abbrev scM1_0 : Memref sig .tc .vmem S512x1 .f32 := Memref.whole cc1_scratch0
abbrev scM1_1 : Memref sig .tc .vmem S512x1024 .f32 := Memref.whole cc1_scratch1
abbrev VS1_0 : View sig .tc .vmem S512x1 .f32 := scM1_0.view
abbrev VS1_1 : View sig .tc .vmem S512x1024 .f32 := scM1_1.view

section RunSpec
variable (c : Dev nD) (i : grid1.Coords)
  (arg3 : Memref sig .tc .vmem S1x512x1024 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x1024 .f32) (harg6 : arg6.IsWhole)
  (arg7 : Memref sig .tc .vmem S512x1 .f32) (harg7 : arg7.IsWhole)
  (arg8 : Memref sig .tc .vmem S512x1024 .f32) (harg8 : arg8.IsWhole)
  (x0 x1 x2 : Vec F S1x512x1024 .bf16)

/-- A run that hands the output buffer back as found, from the accumulators held as `P7`, `P8`: its stored pieces and its triple. -/
abbrev RunIdle1 (P7 P8 : sProp 𝕄) : Type :=
  Σ' (L3 : List (View.Piece (Elt F) S1x512x1024 .f32)) (LS0 : List (View.Piece (Elt F) S512x1 .f32)), { LS1 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ P7 ∗ P8
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8) K }

/-- A run that also stores the output buffer, from accumulators at `xs0`, `xs1`. -/
abbrev RunStore1 (xs0 : Vec F S512x1 .f32) (xs1 : Vec F S512x1024 .f32) : Type :=
  Σ' (L3 : List (View.Piece (Elt F) S1x512x1024 .f32)) (LS0 : List (View.Piece (Elt F) S512x1 .f32)), { LS1 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8) K }

end RunSpec

end Cert.Kernel.Hand

end
-- ==== Proof.K.R1RunA.lean ====
import proofs.«149348_j7679401525936_1_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (hc2 : cond1_2 i) (hc3 : ¬cond1_3 i) (hc4 : ¬cond1_4 i)
    (x0 : Vec F S1x512x1024 .bf16) (x1 : Vec F S1x512x1024 .bf16) (x2 : Vec F S1x512x1024 .bf16) :
    RunIdle1 c i arg3 harg3 arg4 harg4 arg5 harg5 arg6 harg6 arg7 harg7 arg8 harg8 x0 x1 x2 iprop(∃ d, owns (c : Thread nD τ) arg7 fullShare d) iprop(∃ d, owns (c : Thread nD τ) arg8 fullShare d) := by
  refine ⟨[], ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Hand

end
-- ==== Proof.K.R1RunB.lean ====
import proofs.«149348_j7679401525936_1_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : cond1_1 i) (hc2 : ¬cond1_2 i) (hc3 : ¬cond1_3 i) (hc4 : ¬cond1_4 i)
    (x0 : Vec F S1x512x1024 .bf16) (x1 : Vec F S1x512x1024 .bf16) (x2 : Vec F S1x512x1024 .bf16) :
    RunIdle1 c i arg3 harg3 arg4 harg4 arg5 harg5 arg6 harg6 arg7 harg7 arg8 harg8 x0 x1 x2 iprop(∃ d, owns (c : Thread nD τ) arg7 fullShare d) iprop(∃ d, owns (c : Thread nD τ) arg8 fullShare d) := by
  refine ⟨[], ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Hand

end
-- ==== Proof.K.R1RunC.lean ====
import proofs.«149348_j7679401525936_1_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (hc2 : ¬cond1_2 i) (hc3 : ¬cond1_3 i) (hc4 : ¬cond1_4 i)
    (x0 : Vec F S1x512x1024 .bf16) (x1 : Vec F S1x512x1024 .bf16) (x2 : Vec F S1x512x1024 .bf16) (xs0 : Vec F S512x1 .f32) (xs1 : Vec F S512x1024 .f32) :
    RunIdle1 c i arg3 harg3 arg4 harg4 arg5 harg5 arg6 harg6 arg7 harg7 arg8 harg8 x0 x1 x2 (owns (c : Thread nD τ) arg7 fullShare xs0) (owns (c : Thread nD τ) arg8 fullShare xs1) := by
  refine ⟨[], ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Hand

end
-- ==== Proof.K.R1RunD.lean ====
import proofs.«149348_j7679401525936_1_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_D (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (hc2 : cond1_2 i) (hc3 : ¬cond1_3 i) (hc4 : ¬cond1_4 i)
    (x0 : Vec F S1x512x1024 .bf16) (x1 : Vec F S1x512x1024 .bf16) (x2 : Vec F S1x512x1024 .bf16) (xs0 : Vec F S512x1 .f32) (xs1 : Vec F S512x1024 .f32) :
    RunIdle1 c i arg3 harg3 arg4 harg4 arg5 harg5 arg6 harg6 arg7 harg7 arg8 harg8 x0 x1 x2 (owns (c : Thread nD τ) arg7 fullShare xs0) (owns (c : Thread nD τ) arg8 fullShare xs1) := by
  refine ⟨[], ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Hand

end
-- ==== Proof.K.R1RunE.lean ====
import proofs.«149348_j7679401525936_1_alg».proof.Proof.K.R1RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_E (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (hc2 : ¬cond1_2 i) (hc3 : cond1_3 i) (hc4 : ¬cond1_4 i)
    (x0 : Vec F S1x512x1024 .bf16) (x1 : Vec F S1x512x1024 .bf16) (x2 : Vec F S1x512x1024 .bf16) (xs0 : Vec F S512x1 .f32) (xs1 : Vec F S512x1024 .f32) :
    RunIdle1 c i arg3 harg3 arg4 harg4 arg5 harg5 arg6 harg6 arg7 harg7 arg8 harg8 x0 x1 x2 (owns (c : Thread nD τ) arg7 fullShare xs0) (owns (c : Thread nD τ) arg8 fullShare xs1) := by
  refine ⟨[], ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Hand

end
-- ==== Proof.K.R1RunF.lean ====
import proofs.«149348_j7679401525936_1_alg».proof.Proof.K.R1RunE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_F (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (hc2 : cond1_2 i) (hc3 : ¬cond1_3 i) (hc4 : cond1_4 i)
    (x0 : Vec F S1x512x1024 .bf16) (x1 : Vec F S1x512x1024 .bf16) (x2 : Vec F S1x512x1024 .bf16) (xs0 : Vec F S512x1 .f32) (xs1 : Vec F S512x1024 .f32) :
    RunStore1 c i arg3 harg3 arg4 harg4 arg5 harg5 arg6 harg6 arg7 harg7 arg8 harg8 x0 x1 x2 xs0 xs1 := by
  refine ⟨?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.Kernel.Hand

end
-- ==== Proof.K.R1RunG.lean ====
import proofs.«149348_j7679401525936_1_alg».proof.Proof.K.R1RunF

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_G (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (hc2 : ¬cond1_2 i) (hc3 : cond1_3 i) (hc4 : cond1_4 i)
    (x0 : Vec F S1x512x1024 .bf16) (x1 : Vec F S1x512x1024 .bf16) (x2 : Vec F S1x512x1024 .bf16) (xs0 : Vec F S512x1 .f32) (xs1 : Vec F S512x1024 .f32) :
    RunStore1 c i arg3 harg3 arg4 harg4 arg5 harg5 arg6 harg6 arg7 harg7 arg8 harg8 x0 x1 x2 xs0 xs1 := by
  refine ⟨?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.Kernel.Hand

end
-- ==== Proof.K.R1Outs.lean ====
import proofs.«149348_j7679401525936_1_alg».proof.Proof.K.R1RunG
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords)
  (arg3 : Memref sig .tc .vmem S1x512x1024 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x1024 .f32) (harg6 : arg6.IsWhole)
  (arg7 : Memref sig .tc .vmem S512x1 .f32) (harg7 : arg7.IsWhole)
  (arg8 : Memref sig .tc .vmem S512x1024 .f32) (harg8 : arg8.IsWhole)

section CaseA
variable (hc0 : cond1_0 i) (hc1 : ¬cond1_1 i) (hc2 : cond1_2 i) (hc3 : ¬cond1_3 i) (hc4 : ¬cond1_4 i)
  (x0 x1 x2 : Vec F S1x512x1024 .bf16)

local notation "runA" => kernelRun1_A c i arg3 harg3 arg4 harg4 arg5 harg5 arg6 harg6 arg7 harg7 arg8 harg8 hc0 hc1 hc2 hc3 hc4 x0 x1 x2

def out1_A_3 : Vec F S1x512x1024 .f32 :=
  VO1_3.read (Elt F) (VO1_3.writes (Elt F) VO1_3.junk (runA).1)

theorem scover1_A_0 (y : S512x1.Idx) : ∃ pc ∈ (runA).2.1, y ∈ pc.1.set :=
  View.cover_of_tiledL (runA).2.1 S512x1.size (by sl_kernel_rfl) y

def sout1_A_0 : Vec F S512x1 .f32 :=
  VS1_0.read (Elt F) (VS1_0.writes (Elt F) VS1_0.junk (runA).2.1)

theorem scover1_A_1 (y : S512x1024.Idx) : ∃ pc ∈ (runA).2.2.1, y ∈ pc.1.set :=
  View.cover_of_tiledL (runA).2.2.1 S512x1024.size (by sl_kernel_rfl) y

def sout1_A_1 : Vec F S512x1024 .f32 :=
  VS1_1.read (Elt F) (VS1_1.writes (Elt F) VS1_1.junk (runA).2.2.1)

end CaseA

section CaseB
variable (hc0 : cond1_0 i) (hc1 : cond1_1 i) (hc2 : ¬cond1_2 i) (hc3 : ¬cond1_3 i) (hc4 : ¬cond1_4 i)
  (x0 x1 x2 : Vec F S1x512x1024 .bf16)

local notation "runB" => kernelRun1_B c i arg3 harg3 arg4 harg4 arg5 harg5 arg6 harg6 arg7 harg7 arg8 harg8 hc0 hc1 hc2 hc3 hc4 x0 x1 x2

def out1_B_3 : Vec F S1x512x1024 .f32 :=
  VO1_3.read (Elt F) (VO1_3.writes (Elt F) VO1_3.junk (runB).1)

theorem scover1_B_0 (y : S512x1.Idx) : ∃ pc ∈ (runB).2.1, y ∈ pc.1.set :=
  View.cover_of_tiledL (runB).2.1 S512x1.size (by sl_kernel_rfl) y

def sout1_B_0 : Vec F S512x1 .f32 :=
  VS1_0.read (Elt F) (VS1_0.writes (Elt F) VS1_0.junk (runB).2.1)

theorem scover1_B_1 (y : S512x1024.Idx) : ∃ pc ∈ (runB).2.2.1, y ∈ pc.1.set :=
  View.cover_of_tiledL (runB).2.2.1 S512x1024.size (by sl_kernel_rfl) y

def sout1_B_1 : Vec F S512x1024 .f32 :=
  VS1_1.read (Elt F) (VS1_1.writes (Elt F) VS1_1.junk (runB).2.2.1)

end CaseB

section CaseC
variable (hc0 : ¬cond1_0 i) (hc1 : cond1_1 i) (hc2 : ¬cond1_2 i) (hc3 : ¬cond1_3 i) (hc4 : ¬cond1_4 i)
  (x0 x1 x2 : Vec F S1x512x1024 .bf16) (xs0 : Vec F S512x1 .f32) (xs1 : Vec F S512x1024 .f32)

local notation "runC" => kernelRun1_C c i arg3 harg3 arg4 harg4 arg5 harg5 arg6 harg6 arg7 harg7 arg8 harg8 hc0 hc1 hc2 hc3 hc4 x0 x1 x2 xs0 xs1

def out1_C_3 : Vec F S1x512x1024 .f32 :=
  VO1_3.read (Elt F) (VO1_3.writes (Elt F) VO1_3.junk (runC).1)

theorem scover1_C_0 (y : S512x1.Idx) : ∃ pc ∈ (runC).2.1, y ∈ pc.1.set :=
  View.cover_of_tiledL (runC).2.1 S512x1.size (by sl_kernel_rfl) y

def sout1_C_0 : Vec F S512x1 .f32 :=
  VS1_0.read (Elt F) (VS1_0.writes (Elt F) VS1_0.junk (runC).2.1)

theorem scover1_C_1 (y : S512x1024.Idx) : ∃ pc ∈ (runC).2.2.1, y ∈ pc.1.set :=
  View.cover_of_tiledL (runC).2.2.1 S512x1024.size (by sl_kernel_rfl) y

def sout1_C_1 : Vec F S512x1024 .f32 :=
  VS1_1.read (Elt F) (VS1_1.writes (Elt F) VS1_1.junk (runC).2.2.1)

end CaseC

section CaseD
variable (hc0 : ¬cond1_0 i) (hc1 : ¬cond1_1 i) (hc2 : cond1_2 i) (hc3 : ¬cond1_3 i) (hc4 : ¬cond1_4 i)
  (x0 x1 x2 : Vec F S1x512x1024 .bf16) (xs0 : Vec F S512x1 .f32) (xs1 : Vec F S512x1024 .f32)

local notation "runD" => kernelRun1_D c i arg3 harg3 arg4 harg4 arg5 harg5 arg6 harg6 arg7 harg7 arg8 harg8 hc0 hc1 hc2 hc3 hc4 x0 x1 x2 xs0 xs1

def out1_D_3 : Vec F S1x512x1024 .f32 :=
  VO1_3.read (Elt F) (VO1_3.writes (Elt F) VO1_3.junk (runD).1)

theorem scover1_D_0 (y : S512x1.Idx) : ∃ pc ∈ (runD).2.1, y ∈ pc.1.set :=
  View.cover_of_tiledL (runD).2.1 S512x1.size (by sl_kernel_rfl) y

def sout1_D_0 : Vec F S512x1 .f32 :=
  VS1_0.read (Elt F) (VS1_0.writes (Elt F) VS1_0.junk (runD).2.1)

theorem scover1_D_1 (y : S512x1024.Idx) : ∃ pc ∈ (runD).2.2.1, y ∈ pc.1.set :=
  View.cover_of_tiledL (runD).2.2.1 S512x1024.size (by sl_kernel_rfl) y

def sout1_D_1 : Vec F S512x1024 .f32 :=
  VS1_1.read (Elt F) (VS1_1.writes (Elt F) VS1_1.junk (runD).2.2.1)

end CaseD

section CaseE
variable (hc0 : ¬cond1_0 i) (hc1 : ¬cond1_1 i) (hc2 : ¬cond1_2 i) (hc3 : cond1_3 i) (hc4 : ¬cond1_4 i)
  (x0 x1 x2 : Vec F S1x512x1024 .bf16) (xs0 : Vec F S512x1 .f32) (xs1 : Vec F S512x1024 .f32)

local notation "runE" => kernelRun1_E c i arg3 harg3 arg4 harg4 arg5 harg5 arg6 harg6 arg7 harg7 arg8 harg8 hc0 hc1 hc2 hc3 hc4 x0 x1 x2 xs0 xs1

def out1_E_3 : Vec F S1x512x1024 .f32 :=
  VO1_3.read (Elt F) (VO1_3.writes (Elt F) VO1_3.junk (runE).1)

theorem scover1_E_0 (y : S512x1.Idx) : ∃ pc ∈ (runE).2.1, y ∈ pc.1.set :=
  View.cover_of_tiledL (runE).2.1 S512x1.size (by sl_kernel_rfl) y

def sout1_E_0 : Vec F S512x1 .f32 :=
  VS1_0.read (Elt F) (VS1_0.writes (Elt F) VS1_0.junk (runE).2.1)

theorem scover1_E_1 (y : S512x1024.Idx) : ∃ pc ∈ (runE).2.2.1, y ∈ pc.1.set :=
  View.cover_of_tiledL (runE).2.2.1 S512x1024.size (by sl_kernel_rfl) y

def sout1_E_1 : Vec F S512x1024 .f32 :=
  VS1_1.read (Elt F) (VS1_1.writes (Elt F) VS1_1.junk (runE).2.2.1)

end CaseE

section CaseF
variable (hc0 : ¬cond1_0 i) (hc1 : ¬cond1_1 i) (hc2 : cond1_2 i) (hc3 : ¬cond1_3 i) (hc4 : cond1_4 i)
  (x0 x1 x2 : Vec F S1x512x1024 .bf16) (xs0 : Vec F S512x1 .f32) (xs1 : Vec F S512x1024 .f32)

local notation "runF" => kernelRun1_F c i arg3 harg3 arg4 harg4 arg5 harg5 arg6 harg6 arg7 harg7 arg8 harg8 hc0 hc1 hc2 hc3 hc4 x0 x1 x2 xs0 xs1

theorem cover1_F_3 (y : S1x512x1024.Idx) : ∃ pc ∈ (runF).1, y ∈ pc.1.set :=
  View.cover_of_tiledL (runF).1 S1x512x1024.size (by sl_kernel_rfl) y

def out1_F_3 : Vec F S1x512x1024 .f32 :=
  VO1_3.read (Elt F) (VO1_3.writes (Elt F) VO1_3.junk (runF).1)

theorem scover1_F_0 (y : S512x1.Idx) : ∃ pc ∈ (runF).2.1, y ∈ pc.1.set :=
  View.cover_of_tiledL (runF).2.1 S512x1.size (by sl_kernel_rfl) y

def sout1_F_0 : Vec F S512x1 .f32 :=
  VS1_0.read (Elt F) (VS1_0.writes (Elt F) VS1_0.junk (runF).2.1)

theorem scover1_F_1 (y : S512x1024.Idx) : ∃ pc ∈ (runF).2.2.1, y ∈ pc.1.set :=
  View.cover_of_tiledL (runF).2.2.1 S512x1024.size (by sl_kernel_rfl) y

def sout1_F_1 : Vec F S512x1024 .f32 :=
  VS1_1.read (Elt F) (VS1_1.writes (Elt F) VS1_1.junk (runF).2.2.1)

end CaseF

section CaseG
variable (hc0 : ¬cond1_0 i) (hc1 : ¬cond1_1 i) (hc2 : ¬cond1_2 i) (hc3 : cond1_3 i) (hc4 : cond1_4 i)
  (x0 x1 x2 : Vec F S1x512x1024 .bf16) (xs0 : Vec F S512x1 .f32) (xs1 : Vec F S512x1024 .f32)

local notation "runG" => kernelRun1_G c i arg3 harg3 arg4 harg4 arg5 harg5 arg6 harg6 arg7 harg7 arg8 harg8 hc0 hc1 hc2 hc3 hc4 x0 x1 x2 xs0 xs1

theorem cover1_G_3 (y : S1x512x1024.Idx) : ∃ pc ∈ (runG).1, y ∈ pc.1.set :=
  View.cover_of_tiledL (runG).1 S1x512x1024.size (by sl_kernel_rfl) y

def out1_G_3 : Vec F S1x512x1024 .f32 :=
  VO1_3.read (Elt F) (VO1_3.writes (Elt F) VO1_3.junk (runG).1)

theorem scover1_G_0 (y : S512x1.Idx) : ∃ pc ∈ (runG).2.1, y ∈ pc.1.set :=
  View.cover_of_tiledL (runG).2.1 S512x1.size (by sl_kernel_rfl) y

def sout1_G_0 : Vec F S512x1 .f32 :=
  VS1_0.read (Elt F) (VS1_0.writes (Elt F) VS1_0.junk (runG).2.1)

theorem scover1_G_1 (y : S512x1024.Idx) : ∃ pc ∈ (runG).2.2.1, y ∈ pc.1.set :=
  View.cover_of_tiledL (runG).2.2.1 S512x1024.size (by sl_kernel_rfl) y

def sout1_G_1 : Vec F S512x1024 .f32 :=
  VS1_1.read (Elt F) (VS1_1.writes (Elt F) VS1_1.junk (runG).2.2.1)

end CaseG

end Cert.Kernel.Hand

end
-- ==== Proof.K.R1Dat.lean ====
import proofs.«149348_j7679401525936_1_alg».proof.Proof.K.R1Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtPoint
variable (V : (c : Dev nD) → (b : Ref sig .tc) → Buf (Elt F) ((c : Thread nD τ).loc b))
variable (c : Dev nD) (t : Fin cfg1.N)

section PtA
variable (h0 : t.val % 4 = 0) (h1 : ¬t.val % 4 < t.val / 4 % 4) (h2 : t.val % 4 = t.val / 4 % 4) (h3 : ¬t.val / 4 % 4 < t.val % 4) (h4 : ¬t.val % 4 = 3)
local notation "atA[" f "]" => f c (grid1.coords t) (ms1_0 t) (hs1_0 t) (ms1_1 t) (hs1_1 t) (ms1_2 t) (hs1_2 t) (ms1_3 t) (hs1_3 t) scM1_0 (Memref.isWhole_whole _) scM1_1 (Memref.isWhole_whole _) (Iff.mpr (hcond1_0 t) h0) (mt (Iff.mp (hcond1_1 t)) h1) (Iff.mpr (hcond1_2 t) h2) (mt (Iff.mp (hcond1_3 t)) h3) (mt (Iff.mp (hcond1_4 t)) h4) (iblk1 V c 0 t) (iblk1 V c 1 t) (iblk1 V c 2 t)
def ptA : Vec F S1x512x1024 .f32 × Vec F S512x1 .f32 × Vec F S512x1024 .f32 := (atA[out1_A_3], atA[sout1_A_0], atA[sout1_A_1])
end PtA

section PtB
variable (h0 : t.val % 4 = 0) (h1 : t.val % 4 < t.val / 4 % 4) (h2 : ¬t.val % 4 = t.val / 4 % 4) (h3 : ¬t.val / 4 % 4 < t.val % 4) (h4 : ¬t.val % 4 = 3)
local notation "atB[" f "]" => f c (grid1.coords t) (ms1_0 t) (hs1_0 t) (ms1_1 t) (hs1_1 t) (ms1_2 t) (hs1_2 t) (ms1_3 t) (hs1_3 t) scM1_0 (Memref.isWhole_whole _) scM1_1 (Memref.isWhole_whole _) (Iff.mpr (hcond1_0 t) h0) (Iff.mpr (hcond1_1 t) h1) (mt (Iff.mp (hcond1_2 t)) h2) (mt (Iff.mp (hcond1_3 t)) h3) (mt (Iff.mp (hcond1_4 t)) h4) (iblk1 V c 0 t) (iblk1 V c 1 t) (iblk1 V c 2 t)
def ptB : Vec F S1x512x1024 .f32 × Vec F S512x1 .f32 × Vec F S512x1024 .f32 := (atB[out1_B_3], atB[sout1_B_0], atB[sout1_B_1])
end PtB

section PtC
variable (h0 : ¬t.val % 4 = 0) (h1 : t.val % 4 < t.val / 4 % 4) (h2 : ¬t.val % 4 = t.val / 4 % 4) (h3 : ¬t.val / 4 % 4 < t.val % 4) (h4 : ¬t.val % 4 = 3)
  (xs0 : Vec F S512x1 .f32) (xs1 : Vec F S512x1024 .f32)
local notation "atC[" f "]" => f c (grid1.coords t) (ms1_0 t) (hs1_0 t) (ms1_1 t) (hs1_1 t) (ms1_2 t) (hs1_2 t) (ms1_3 t) (hs1_3 t) scM1_0 (Memref.isWhole_whole _) scM1_1 (Memref.isWhole_whole _) (mt (Iff.mp (hcond1_0 t)) h0) (Iff.mpr (hcond1_1 t) h1) (mt (Iff.mp (hcond1_2 t)) h2) (mt (Iff.mp (hcond1_3 t)) h3) (mt (Iff.mp (hcond1_4 t)) h4) (iblk1 V c 0 t) (iblk1 V c 1 t) (iblk1 V c 2 t) xs0 xs1
def ptC : Vec F S1x512x1024 .f32 × Vec F S512x1 .f32 × Vec F S512x1024 .f32 := (atC[out1_C_3], atC[sout1_C_0], atC[sout1_C_1])
end PtC

section PtD
variable (h0 : ¬t.val % 4 = 0) (h1 : ¬t.val % 4 < t.val / 4 % 4) (h2 : t.val % 4 = t.val / 4 % 4) (h3 : ¬t.val / 4 % 4 < t.val % 4) (h4 : ¬t.val % 4 = 3)
  (xs0 : Vec F S512x1 .f32) (xs1 : Vec F S512x1024 .f32)
local notation "atD[" f "]" => f c (grid1.coords t) (ms1_0 t) (hs1_0 t) (ms1_1 t) (hs1_1 t) (ms1_2 t) (hs1_2 t) (ms1_3 t) (hs1_3 t) scM1_0 (Memref.isWhole_whole _) scM1_1 (Memref.isWhole_whole _) (mt (Iff.mp (hcond1_0 t)) h0) (mt (Iff.mp (hcond1_1 t)) h1) (Iff.mpr (hcond1_2 t) h2) (mt (Iff.mp (hcond1_3 t)) h3) (mt (Iff.mp (hcond1_4 t)) h4) (iblk1 V c 0 t) (iblk1 V c 1 t) (iblk1 V c 2 t) xs0 xs1
def ptD : Vec F S1x512x1024 .f32 × Vec F S512x1 .f32 × Vec F S512x1024 .f32 := (atD[out1_D_3], atD[sout1_D_0], atD[sout1_D_1])
end PtD

section PtE
variable (h0 : ¬t.val % 4 = 0) (h1 : ¬t.val % 4 < t.val / 4 % 4) (h2 : ¬t.val % 4 = t.val / 4 % 4) (h3 : t.val / 4 % 4 < t.val % 4) (h4 : ¬t.val % 4 = 3)
  (xs0 : Vec F S512x1 .f32) (xs1 : Vec F S512x1024 .f32)
local notation "atE[" f "]" => f c (grid1.coords t) (ms1_0 t) (hs1_0 t) (ms1_1 t) (hs1_1 t) (ms1_2 t) (hs1_2 t) (ms1_3 t) (hs1_3 t) scM1_0 (Memref.isWhole_whole _) scM1_1 (Memref.isWhole_whole _) (mt (Iff.mp (hcond1_0 t)) h0) (mt (Iff.mp (hcond1_1 t)) h1) (mt (Iff.mp (hcond1_2 t)) h2) (Iff.mpr (hcond1_3 t) h3) (mt (Iff.mp (hcond1_4 t)) h4) (iblk1 V c 0 t) (iblk1 V c 1 t) (iblk1 V c 2 t) xs0 xs1
def ptE : Vec F S1x512x1024 .f32 × Vec F S512x1 .f32 × Vec F S512x1024 .f32 := (atE[out1_E_3], atE[sout1_E_0], atE[sout1_E_1])
end PtE

section PtF
variable (h0 : ¬t.val % 4 = 0) (h1 : ¬t.val % 4 < t.val / 4 % 4) (h2 : t.val % 4 = t.val / 4 % 4) (h3 : ¬t.val / 4 % 4 < t.val % 4) (h4 : t.val % 4 = 3)
  (xs0 : Vec F S512x1 .f32) (xs1 : Vec F S512x1024 .f32)
local notation "atF[" f "]" => f c (grid1.coords t) (ms1_0 t) (hs1_0 t) (ms1_1 t) (hs1_1 t) (ms1_2 t) (hs1_2 t) (ms1_3 t) (hs1_3 t) scM1_0 (Memref.isWhole_whole _) scM1_1 (Memref.isWhole_whole _) (mt (Iff.mp (hcond1_0 t)) h0) (mt (Iff.mp (hcond1_1 t)) h1) (Iff.mpr (hcond1_2 t) h2) (mt (Iff.mp (hcond1_3 t)) h3) (Iff.mpr (hcond1_4 t) h4) (iblk1 V c 0 t) (iblk1 V c 1 t) (iblk1 V c 2 t) xs0 xs1
def ptF : Vec F S1x512x1024 .f32 × Vec F S512x1 .f32 × Vec F S512x1024 .f32 := (atF[out1_F_3], atF[sout1_F_0], atF[sout1_F_1])
end PtF

section PtG
variable (h0 : ¬t.val % 4 = 0) (h1 : ¬t.val % 4 < t.val / 4 % 4) (h2 : ¬t.val % 4 = t.val / 4 % 4) (h3 : t.val / 4 % 4 < t.val % 4) (h4 : t.val % 4 = 3)
  (xs0 : Vec F S512x1 .f32) (xs1 : Vec F S512x1024 .f32)
local notation "atG[" f "]" => f c (grid1.coords t) (ms1_0 t) (hs1_0 t) (ms1_1 t) (hs1_1 t) (ms1_2 t) (hs1_2 t) (ms1_3 t) (hs1_3 t) scM1_0 (Memref.isWhole_whole _) scM1_1 (Memref.isWhole_whole _) (mt (Iff.mp (hcond1_0 t)) h0) (mt (Iff.mp (hcond1_1 t)) h1) (mt (Iff.mp (hcond1_2 t)) h2) (Iff.mpr (hcond1_3 t) h3) (Iff.mpr (hcond1_4 t) h4) (iblk1 V c 0 t) (iblk1 V c 1 t) (iblk1 V c 2 t) xs0 xs1
def ptG : Vec F S1x512x1024 .f32 × Vec F S512x1 .f32 × Vec F S512x1024 .f32 := (atG[out1_G_3], atG[sout1_G_0], atG[sout1_G_1])
end PtG

end AtPoint

variable (V : (c : Dev nD) → (b : Ref sig .tc) → Buf (Elt F) ((c : Thread nD τ).loc b))

def outsAt1 (c : Dev nD) : (n : ℕ) → n < cfg1.N → Vec F S1x512x1024 .f32 × Vec F S512x1 .f32 × Vec F S512x1024 .f32
  | 0, hn => ptA V c ⟨0, hn⟩ (by simp) (by simp) (by simp) (by simp) (by simp)
  | n + 1, hn =>
    if h1 : (n + 1) % 4 < (n + 1) / 4 % 4 then
      if h0 : (n + 1) % 4 = 0 then ptB V c ⟨n + 1, hn⟩ h0 h1 (by dsimp only; omega) (by dsimp only; omega) (by dsimp only; omega)
      else ptC V c ⟨n + 1, hn⟩ h0 h1 (by dsimp only; omega) (by dsimp only; omega) (by dsimp only; omega) (outsAt1 c n (Nat.lt_of_succ_lt hn)).2.1 (outsAt1 c n (Nat.lt_of_succ_lt hn)).2.2
    else if h2 : (n + 1) % 4 = (n + 1) / 4 % 4 then
      if h0 : (n + 1) % 4 = 0 then ptA V c ⟨n + 1, hn⟩ h0 h1 h2 (by dsimp only; omega) (by dsimp only; omega)
      else if h4 : (n + 1) % 4 = 3 then ptF V c ⟨n + 1, hn⟩ h0 h1 h2 (by dsimp only; omega) h4 (outsAt1 c n (Nat.lt_of_succ_lt hn)).2.1 (outsAt1 c n (Nat.lt_of_succ_lt hn)).2.2
      else ptD V c ⟨n + 1, hn⟩ h0 h1 h2 (by dsimp only; omega) h4 (outsAt1 c n (Nat.lt_of_succ_lt hn)).2.1 (outsAt1 c n (Nat.lt_of_succ_lt hn)).2.2
    else if h4 : (n + 1) % 4 = 3 then ptG V c ⟨n + 1, hn⟩ (by dsimp only; omega) h1 h2 (by dsimp only; omega) h4 (outsAt1 c n (Nat.lt_of_succ_lt hn)).2.1 (outsAt1 c n (Nat.lt_of_succ_lt hn)).2.2
    else ptE V c ⟨n + 1, hn⟩ (by dsimp only; omega) h1 h2 (by dsimp only; omega) h4 (outsAt1 c n (Nat.lt_of_succ_lt hn)).2.1 (outsAt1 c n (Nat.lt_of_succ_lt hn)).2.2

theorem outsAt1_A (c : Dev nD) (t : Fin cfg1.N) (h0 : t.val % 4 = 0) (h1 : ¬t.val % 4 < t.val / 4 % 4) (h2 : t.val % 4 = t.val / 4 % 4)
    (h3 : ¬t.val / 4 % 4 < t.val % 4) (h4 : ¬t.val % 4 = 3) :
    outsAt1 V c t.val t.isLt = ptA V c t h0 h1 h2 h3 h4 := by
  obtain ⟨n, hn⟩ := t
  cases n with
  | zero => exact rfl
  | succ n => exact (dif_neg h1).trans ((dif_pos h2).trans (dif_pos h0))

theorem outsAt1_B (c : Dev nD) (t : Fin cfg1.N) (h0 : t.val % 4 = 0) (h1 : t.val % 4 < t.val / 4 % 4) (h2 : ¬t.val % 4 = t.val / 4 % 4)
    (h3 : ¬t.val / 4 % 4 < t.val % 4) (h4 : ¬t.val % 4 = 3) :
    outsAt1 V c t.val t.isLt = ptB V c t h0 h1 h2 h3 h4 := by
  obtain ⟨n, hn⟩ := t
  cases n with
  | zero => exact absurd h1 (by simp)
  | succ n => exact (dif_pos h1).trans (dif_pos h0)

theorem outsAt1_C (c : Dev nD) (t : Fin cfg1.N) (h0 : ¬t.val % 4 = 0) (h1 : t.val % 4 < t.val / 4 % 4) (h2 : ¬t.val % 4 = t.val / 4 % 4)
    (h3 : ¬t.val / 4 % 4 < t.val % 4) (h4 : ¬t.val % 4 = 3) :
    outsAt1 V c t.val t.isLt = ptC V c t h0 h1 h2 h3 h4
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (by simp) h0
  | succ n => exact (dif_pos h1).trans (dif_neg h0)

theorem outsAt1_D (c : Dev nD) (t : Fin cfg1.N) (h0 : ¬t.val % 4 = 0) (h1 : ¬t.val % 4 < t.val / 4 % 4) (h2 : t.val % 4 = t.val / 4 % 4)
    (h3 : ¬t.val / 4 % 4 < t.val % 4) (h4 : ¬t.val % 4 = 3) :
    outsAt1 V c t.val t.isLt = ptD V c t h0 h1 h2 h3 h4
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (by simp) h0
  | succ n => exact (dif_neg h1).trans ((dif_pos h2).trans ((dif_neg h0).trans (dif_neg h4)))

theorem outsAt1_E (c : Dev nD) (t : Fin cfg1.N) (h0 : ¬t.val % 4 = 0) (h1 : ¬t.val % 4 < t.val / 4 % 4) (h2 : ¬t.val % 4 = t.val / 4 % 4)
    (h3 : t.val / 4 % 4 < t.val % 4) (h4 : ¬t.val % 4 = 3) :
    outsAt1 V c t.val t.isLt = ptE V c t h0 h1 h2 h3 h4
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (by simp) h0
  | succ n => exact (dif_neg h1).trans ((dif_neg h2).trans (dif_neg h4))

theorem outsAt1_F (c : Dev nD) (t : Fin cfg1.N) (h0 : ¬t.val % 4 = 0) (h1 : ¬t.val % 4 < t.val / 4 % 4) (h2 : t.val % 4 = t.val / 4 % 4)
    (h3 : ¬t.val / 4 % 4 < t.val % 4) (h4 : t.val % 4 = 3) :
    outsAt1 V c t.val t.isLt = ptF V c t h0 h1 h2 h3 h4
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (by simp) h0
  | succ n => exact (dif_neg h1).trans ((dif_pos h2).trans ((dif_neg h0).trans (dif_pos h4)))

theorem outsAt1_G (c : Dev nD) (t : Fin cfg1.N) (h0 : ¬t.val % 4 = 0) (h1 : ¬t.val % 4 < t.val / 4 % 4) (h2 : ¬t.val % 4 = t.val / 4 % 4)
    (h3 : t.val / 4 % 4 < t.val % 4) (h4 : t.val % 4 = 3) :
    outsAt1 V c t.val t.isLt = ptG V c t h0 h1 h2 h3 h4
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (by simp) h0
  | succ n => exact (dif_neg h1).trans ((dif_neg h2).trans (dif_pos h4))

/-- The region's scoped buffers other than the two accumulators, each at some contents. -/
def scoped1 (c : Dev nD) : sProp 𝕄 :=
  bigSep ((((Finset.univ.filter fun b : Ref sig .tc => b.isScoped) \ Finset.univ.image (Pipeline.stageRef spec1)).erase cc1_scratch0).erase cc1_scratch1)
    (fun b => iprop(∃ f : Buf (Elt F) ((c : Thread nD τ).loc b), ((c : Thread nD τ).loc b) ↦{fullShare} f))

def rest1 (c : Dev nD) : sProp 𝕄 := iprop(scoped1 c ∗ ∃ r, prngReg c r)

/-- The invariant before the first point: the two accumulators at some contents, the other scoped buffers, the generator register. -/
theorem PhiA1_split (c : Dev nD) : (Pipeline.ΦA spec1 c : sProp 𝕄)
    = iprop(((∃ d, owns (c : Thread nD τ) scM1_0 fullShare d) ∗ (∃ d, owns (c : Thread nD τ) scM1_1 fullShare d) ∗ scoped1 c) ∗ ∃ r, prngReg c r) := by
  unfold Pipeline.ΦA Pipeline.scopedRest scoped1
  rw [bigSep_erase (i := cc1_scratch0) (by decide), bigSep_erase (i := cc1_scratch1) (by decide)]
  simp only [scM1_0, scM1_1, owns_whole]
  rfl

theorem PhiA1_open (c : Dev nD) : (Pipeline.ΦA spec1 c : sProp 𝕄)
    ⊢ iprop(((∃ d, owns (c : Thread nD τ) scM1_0 fullShare d) ∗ (∃ d, owns (c : Thread nD τ) scM1_1 fullShare d)) ∗ rest1 c) := by
  rw [PhiA1_split]; unfold rest1
  iintro ⟨⟨HS0, HS1, Hr⟩, Hg⟩
  isplitl [HS0 HS1]
  · isplitl [HS0]; · iexact HS0
    iexact HS1
  isplitl [Hr]; · iexact Hr
  iexact Hg

theorem PhiA1_close (c : Dev nD) :
    iprop(((∃ d, owns (c : Thread nD τ) scM1_0 fullShare d) ∗ (∃ d, owns (c : Thread nD τ) scM1_1 fullShare d)) ∗ rest1 c)
      ⊢ (Pipeline.ΦA spec1 c : sProp 𝕄) := by
  rw [PhiA1_split]; unfold rest1
  iintro ⟨⟨HS0, HS1⟩, Hr, Hg⟩
  isplitr [Hg]
  · isplitl [HS0]; · iexact HS0
    isplitl [HS1]; · iexact HS1
    iexact Hr
  iexact Hg

def PhiS1 (c : Dev nD) : (n : ℕ) → n ≤ cfg1.N → sProp 𝕄
  | 0, _ => Pipeline.ΦA spec1 c
  | n + 1, hn => iprop((owns (c : Thread nD τ) scM1_0 fullShare (outsAt1 V c n hn).2.1
      ∗ owns (c : Thread nD τ) scM1_1 fullShare (outsAt1 V c n hn).2.2) ∗ rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare (outsAt1 V c n hn).2.1
      ∗ owns (c : Thread nD τ) scM1_1 fullShare (outsAt1 V c n hn).2.2) ∗ rest1 c) := rfl

theorem PhiS1_pos (c : Dev nD) (n : ℕ) (h : n ≤ cfg1.N) (hz : n ≠ 0) :
    PhiS1 V c n h = iprop((owns (c : Thread nD τ) scM1_0 fullShare (outsAt1 V c (n - 1) (by omega)).2.1
      ∗ owns (c : Thread nD τ) scM1_1 fullShare (outsAt1 V c (n - 1) (by omega)).2.2) ∗ rest1 c) := by
  cases n with
  | zero => exact absurd rfl hz
  | succ n => rfl

theorem PhiS1_open (c : Dev nD) (n : ℕ) (h : n ≤ cfg1.N) :
    PhiS1 V c n h
      ⊢ iprop(((∃ d, owns (c : Thread nD τ) scM1_0 fullShare d) ∗ (∃ d, owns (c : Thread nD τ) scM1_1 fullShare d)) ∗ rest1 c) := by
  cases n with
  | zero => exact PhiA1_open c
  | succ n =>
    rw [PhiS1_succ]
    iintro ⟨⟨HS0, HS1⟩, Hr⟩
    isplitr [Hr]
    · isplitl [HS0]; · iexists _; iexact HS0
      iexists _; iexact HS1
    iexact Hr

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

end Cert.Kernel.Hand

end
-- ==== Proof.K.R1Body.lean ====
import proofs.«149348_j7679401525936_1_alg».proof.Proof.K.R1Dat

namespace Cert.Kernel.Hand

open Cert.Kernel Cert.Kernel.Gen Idealize.ShloMosaic Idealize.ShloMosaic.TcCoe
open Idealize.SL.RA Idealize.SL.BI Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Writes that cover a memref leave it at their read-back, whatever it held and through whichever view it is read.
theorem owns_of_cover1 (c : Dev nD) {sp : Space} {s : Shape} {e : EltTy} (m : Memref sig .tc sp s e) {κ' : Kind} {sp' : Space}
    (v' : View sig κ' sp' s e) (f' : v'.ty.Contents (Elt F)) {L : List (View.Piece (Elt F) s e)} (h : ∀ y, ∃ p ∈ L, y ∈ p.1.set) :
    iprop(∃ f, m.view.loc (c : Thread nD τ) ↦[m.view.set]{fullShare} m.view.writes (Elt F) f L)
      ⊢ (owns (c : Thread nD τ) m fullShare (v'.read (Elt F) (v'.writes (Elt F) f' L)) : sProp 𝕄) := by
  unfold owns; iintro ⟨%f, H⟩; iexists _; isplitr
  swap; · iexact H
  ipureintro; exact View.read_writes_of_cover _ _ _ _ _ h

-- At a point where a window is not idle its post is the buffer at the proof data's contents.
theorem leaves_live1 (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

-- The run's covering pieces read back as the recurrence's components, so its continuation holds the post of every window and the next invariant.
theorem body1_of_run (c : Dev nD) (t : Fin cfg1.N) {L3 : List (View.Piece (Elt F) S1x512x1024 .f32)}
    {LS0 : List (View.Piece (Elt F) S512x1 .f32)} {LS1 : List (View.Piece (Elt F) S512x1024 .f32)} {X : Type} {P0 P1 : sProp 𝕄} {P3 Q3 : X → sProp 𝕄}
    (ho : outsAt1 V c t.val t.isLt = (VO1_3.read (Elt F) (VO1_3.writes (Elt F) VO1_3.junk L3),
      VS1_0.read (Elt F) (VS1_0.writes (Elt F) VS1_0.junk LS0), VS1_1.read (Elt F) (VS1_1.writes (Elt F) VS1_1.junk LS1)))
    (hS0 : ∀ y, ∃ p ∈ LS0, y ∈ p.1.set) (hS1 : ∀ y, ∃ p ∈ LS1, y ∈ p.1.set)
    (hΦ : (dat1 V c).Φ t.castSucc ⊢ iprop((P0 ∗ P1) ∗ rest1 c))
    (hin : iprop(∃ d, owns (c : Thread nD τ) (ms1_3 t) fullShare ((dat1 V c).before 3 t d)) ⊢ iprop(∃ x, P3 x))
    (hout : ∀ x, Q3 x ⊢ (dat1 V c).leavesExact 3 t)
    (hrun : ∀ x (K : PUnit → sProp 𝕄),
      iprop(owns (c : Thread nD τ) (ms1_0 t) fullShare (iblk1 V c 0 t) ∗ owns (c : Thread nD τ) (ms1_1 t) fullShare (iblk1 V c 1 t)
          ∗ owns (c : Thread nD τ) (ms1_2 t) fullShare (iblk1 V c 2 t) ∗ P3 x ∗ P0 ∗ P1
          ∗ (iprop(owns (c : Thread nD τ) (ms1_0 t) fullShare (iblk1 V c 0 t) ∗ owns (c : Thread nD τ) (ms1_1 t) fullShare (iblk1 V c 1 t)
              ∗ owns (c : Thread nD τ) (ms1_2 t) fullShare (iblk1 V c 2 t) ∗ Q3 x
              ∗ (∃ f, VS1_0.loc (c : Thread nD τ) ↦[VS1_0.set]{fullShare} VS1_0.writes (Elt F) f LS0)
              ∗ (∃ f, VS1_1.loc (c : Thread nD τ) ↦[VS1_1.set]{fullShare} VS1_1.writes (Elt F) f LS1)) -∗ K ⟨⟩))
        ⊢ wp frame (wpE (defs₀ (F := F)) Variants.none c none) Set.univ (bodyAt1 t) K) :
    bodyPre1 V c t ⊢ wp frame (wpE (defs₀ (F := F)) Variants.none c none) Set.univ (bodyAt1 t) (fun _ => bodyPost1 V c t) := by
  unfold bodyPre1 bodyPost1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ, ho]
  rw [leaves_live1 V c 0 t (liveAt1_0 t), after1_0, leaves_live1 V c 1 t (liveAt1_1 t), after1_1, leaves_live1 V c 2 t (liveAt1_2 t), after1_2]
  iintro ⟨HΦ, Ho, ⟨%d0, H0⟩, ⟨%d1, H1⟩, ⟨%d2, H2⟩, H3⟩
  ihave HΦ' := hΦ $$ HΦ
  icases HΦ' with ⟨⟨HS0, HS1⟩, Hr⟩
  ihave H3' := hin $$ H3
  icases H3' with ⟨%x, H3⟩
  iapply (hrun x _)
  iframe H0 H1 H2 H3 HS0 HS1
  iintro ⟨H0, H1, H2, H3, HS0, HS1⟩
  ihave HS0 := (owns_of_cover1 c scM1_0 VS1_0 VS1_0.junk hS0) $$ HS0
  ihave HS1 := (owns_of_cover1 c scM1_1 VS1_1 VS1_1.junk hS1) $$ HS1
  ihave H3 := (hout x) $$ H3
  iframe

-- Off the last key block the post for window 3 is its buffer at what it held.
theorem win1_3_idle (c : Dev nD) (t : Fin cfg1.N) (h4 : ¬t.val % 4 = 3) (d) :
    owns (c : Thread nD τ) (ms1_3 t) fullShare ((dat1 V c).before 3 t d) ⊢ (dat1 V c).leavesExact 3 t := by
  rw [Dat.leavesExact_idle (dat1 V c) 3 t (idleAt1_3 t (mt (hcond1_4 t).1 h4)) (noFlush1_3 t (mt (hcond1_4 t).1 h4))]
  iintro H; iexists d; iexact H

-- At the last key block the run takes window 3's buffer at any contents.
theorem win1_3_any (c : Dev nD) (t : Fin cfg1.N) :
    iprop(∃ d, owns (c : Thread nD τ) (ms1_3 t) fullShare ((dat1 V c).before 3 t d))
      ⊢ (iprop(∃ _ : Unit, ∃ d, owns (c : Thread nD τ) (ms1_3 t) fullShare d) : sProp 𝕄) := by
  iintro ⟨%d, H⟩; iexists (); iexists _; iexact H

-- At the last key block the run's pieces cover window 3's buffer and read back as the recurrence's first component.
theorem win1_3_live (c : Dev nD) (t : Fin cfg1.N) (h4 : t.val % 4 = 3) {L3 : List (View.Piece (Elt F) S1x512x1024 .f32)} {o1 o2}
    (ho : outsAt1 V c t.val t.isLt = (VO1_3.read (Elt F) (VO1_3.writes (Elt F) VO1_3.junk L3), o1, o2)) (h3 : ∀ y, ∃ p ∈ L3, y ∈ p.1.set) :
    iprop(∃ f, (ms1_3 t).view.loc (c : Thread nD τ) ↦[(ms1_3 t).view.set]{fullShare} (ms1_3 t).view.writes (Elt F) f L3)
      ⊢ (dat1 V c).leavesExact 3 t := by
  rw [leaves_live1 V c 3 t (liveAt1_3 t ((hcond1_4 t).2 h4)), after1_3, ho]
  dsimp only; exact owns_of_cover1 c _ VO1_3 _ h3

end Cert.Kernel.Hand
-- ==== Proof.K.R1.lean ====
import proofs.«149348_j7679401525936_1_alg».proof.Proof.K.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound_body1 (c : Dev nD) (t : Fin cfg1.N) :
    bodyPre1 V c t ⊢ wp frame (wpE (defs₀ (F := F)) Variants.none c none) Set.univ (bodyAt1 t) (fun _ => bodyPost1 V c t) := by
  by_cases h1 : t.val % 4 < t.val / 4 % 4
  · by_cases h0 : t.val % 4 = 0
    · exact body1_of_run V c t (outsAt1_B V c t h0 h1 (by omega) (by omega) (by omega)) (fun _ => scover1_B_0 ..) (fun _ => scover1_B_1 ..)
        (by rw [PhiS1_castSucc]; exact PhiS1_open V c _ _) .rfl (win1_3_idle V c t (by omega)) fun _ => (kernelRun1_B ..).2.2.2 _ _
    · exact body1_of_run V c t (outsAt1_C V c t h0 h1 (by omega) (by omega) (by omega)) (fun _ => scover1_C_0 ..) (fun _ => scover1_C_1 ..)
        (by rw [PhiS1_castSucc, PhiS1_pos V c _ _ (by omega)]) .rfl (win1_3_idle V c t (by omega)) fun _ => (kernelRun1_C ..).2.2.2 _ _
  by_cases h2 : t.val % 4 = t.val / 4 % 4
  · by_cases h0 : t.val % 4 = 0
    · exact body1_of_run V c t (outsAt1_A V c t h0 h1 h2 (by omega) (by omega)) (fun _ => scover1_A_0 ..) (fun _ => scover1_A_1 ..)
        (by rw [PhiS1_castSucc]; exact PhiS1_open V c _ _) .rfl (win1_3_idle V c t (by omega)) fun _ => (kernelRun1_A ..).2.2.2 _ _
    by_cases h4 : t.val % 4 = 3
    · exact body1_of_run V c t (outsAt1_F V c t h0 h1 h2 (by omega) h4) (fun _ => scover1_F_0 ..) (fun _ => scover1_F_1 ..)
        (by rw [PhiS1_castSucc, PhiS1_pos V c _ _ (by omega)]) (win1_3_any V c t)
        (fun _ => win1_3_live V c t h4 (outsAt1_F V c t h0 h1 h2 (by omega) h4) fun _ => cover1_F_3 ..) fun _ => (kernelRun1_F ..).2.2.2 _
    · exact body1_of_run V c t (outsAt1_D V c t h0 h1 h2 (by omega) h4) (fun _ => scover1_D_0 ..) (fun _ => scover1_D_1 ..)
        (by rw [PhiS1_castSucc, PhiS1_pos V c _ _ (by omega)]) .rfl (win1_3_idle V c t h4) fun _ => (kernelRun1_D ..).2.2.2 _ _
  by_cases h4 : t.val % 4 = 3
  · exact body1_of_run V c t (outsAt1_G V c t (by omega) h1 h2 (by omega) h4) (fun _ => scover1_G_0 ..) (fun _ => scover1_G_1 ..)
        (by rw [PhiS1_castSucc, PhiS1_pos V c _ _ (by omega)]) (win1_3_any V c t)
        (fun _ => win1_3_live V c t h4 (outsAt1_G V c t (by omega) h1 h2 (by omega) h4) fun _ => cover1_G_3 ..) fun _ => (kernelRun1_G ..).2.2.2 _
  · exact body1_of_run V c t (outsAt1_E V c t (by omega) h1 h2 (by omega) h4) (fun _ => scover1_E_0 ..) (fun _ => scover1_E_1 ..)
        (by rw [PhiS1_castSucc, PhiS1_pos V c _ _ (by omega)]) .rfl (win1_3_idle V c t h4) fun _ => (kernelRun1_E ..).2.2.2 _ _

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl]
  exact Idealize.SL.BI.Entails.trans (PhiS1_open V c _ _) (PhiA1_close c)

end Cert.Kernel.Hand

end
-- ==== Proof.K.R2.lean ====
import proofs.«149348_j7679401525936_1_alg».proof.Proof.Gen.Kernel.Launch
import proofs.«149348_j7679401525936_1_alg».proof.Proof.Gen.Kernel.Skeleton
import proofs.«149348_j7679401525936_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S256x1024 := Rect.unit (s := S256x1024) ![0, 0] S256x1024.size inb_S256x1024_S256x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

def out2_3 (x0 : Vec F S256x1024 .f32) (x1 : Vec F S1024x1024 .bf16) (x2 : Vec F S1x1024 .f32) : Vec F S256x1024 .f32 :=
  View.canon [⟨r2_0, k2_pay1 (View.ld x0 r2_0) (View.ld x1 r2_1) (View.ld x2 r2_2)⟩]

theorem cover2_3 (p0 : Vec F S256x1024 .f32) (y : S256x1024.Idx) :
    ∃ pc ∈ ([⟨r2_0, p0⟩] : List (View.Piece (Elt F) S256x1024 .f32)), y ∈ pc.1.set :=
  View.cover_of_tiled [⟨r2_0, p0⟩] S256x1024.size (by rfl) y

set_option maxHeartbeats 1000000 in
theorem sound_kernel2 (c : Dev nD) (E : Set ℕ) (i : grid2.Coords) (arg1 : Memref sig .tc .vmem S256x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S256x1024 .f32) (harg4 : arg4.IsWhole)
    (x0 : Vec F S256x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__outproj_kernel i arg1 harg1 arg2 harg2 arg3 harg3 arg4 harg4) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
import proofs.«149348_j7679401525936_1_alg».proof.Proof.K.R0
import proofs.«149348_j7679401525936_1_alg».proof.Proof.K.R1
import proofs.«149348_j7679401525936_1_alg».proof.Proof.K.R2
import proofs.«149348_j7679401525936_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (⟨m, fun _ => 0, ρ⟩ : MemSt nD τ sig (Elt F)).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev W7 : Dev nD → Valuation τ sig (Elt F) := fun c => StableHlo.after hostOps3 (W6 m ρ c)

abbrev argRefs : List (Ref sig .tc) := [main_arg0, main_arg1, main_arg2, main_arg3, main_arg4, main_arg5]

/-- No host stretch writes an argument, no region has one among its arrays, and none is scoped. -/
theorem arg_untouched : ∀ b ∈ argRefs, b ∉ hostOps0_W ∧ (∀ w, Pipeline.arrRef spec0 w ≠ b) ∧ b ∉ hostOps1_W
    ∧ (∀ w, Pipeline.arrRef spec1 w ≠ b) ∧ b ∉ hostOps2_W ∧ (∀ w, Pipeline.arrRef spec2 w ≠ b) ∧ b ∉ hostOps3_W
    ∧ ¬ (Proc.devRef .tc b : DevRef τ sig).isScoped := by decide

theorem W4_arg (c : Dev nD) {b : Ref sig .tc} (hb : b ∈ argRefs) :
    W4 m ρ c (Proc.devRef .tc b) = m ((c : Thread nD τ).loc b) := by
  obtain ⟨h0, a0, h1, a1, -⟩ := arg_untouched b hb
  exact (W4_of_ne m ρ c b a1).trans <| (StableHlo.after_of_writes_sub hostOps1 _ hostOps1_writes h1).trans <|
    (W2_of_ne m ρ c b a0).trans <| StableHlo.after_of_writes_sub hostOps0 _ hostOps0_writes h0

theorem W7_arg (c : Dev nD) {b : Ref sig .tc} (hb : b ∈ argRefs) :
    W7 m ρ c (Proc.devRef .tc b) = m ((c : Thread nD τ).loc b) := by
  obtain ⟨-, -, -, -, h2, a2, h3, -⟩ := arg_untouched b hb
  exact (StableHlo.after_of_writes_sub hostOps3 _ hostOps3_writes h3).trans <| (W6_of_ne m ρ c b a2).trans <|
    (StableHlo.after_of_writes_sub hostOps2 _ hostOps2_writes h2).trans <| W4_arg m ρ c hb

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

set_option backward.isDefEq.respectTransparency.types false in
/-- A region as a segment from every unscoped buffer at `Win` to every one at `Wout`: its arrays are split out at entry and put back at exit. -/
def reg (p : Fin 3) (la : Pipeline.LaunchFacts (nD := nD) (τ := τ) cfgs p) (Win Wout : Dev nD → Valuation τ sig (Elt F))
    (hbody : ∀ c, BodyObligation (pdats m ρ p c) (defs₀ (F := F)) Variants.none () Set.univ)
    (hq : ∀ c w, (pdats m ρ p c).q w = fullShare) (howed : ∀ c, (pdats m ρ p c).owed = fun _ => 0)
    (hrec : ∀ c, (pdats m ρ p c).recorded = fun _ => Set.univ)
    (hA : ∀ c w, (pdats m ρ p c).A w = Win c (Proc.devRef .tc (Pipeline.arrRef (cfgs p).spec w)))
    (hF : ∀ c w, Wout c (Proc.devRef .tc (Pipeline.arrRef (cfgs p).spec w)) = (pdats m ρ p c).arrAt w (cfgs p).N)
    (hne : ∀ c (b : Ref sig .tc), (∀ w, Pipeline.arrRef (cfgs p).spec w ≠ b) → Wout c (Proc.devRef .tc b) = Win c (Proc.devRef .tc b))
    (hΦi : ∀ c, (Pipeline.ΦA (cfgs p).spec c : sProp 𝕄) ⊢ (pdats m ρ p c).Φ 0)
    (hΦo : ∀ c, (pdats m ρ p c).Φ (Fin.last _) ⊢ (Pipeline.ΦA (cfgs p).spec c : sProp 𝕄)) :
    Pipeline.RegionSeg (pcfgs (F := F)) adm (pdats m ρ) () defs₀ 𝒱₀ L lv p where
  win := la.win.to₀
  block_pos := la.block_pos
  stage_whole := la.stage_whole
  K := PEmpty
  osem k := k.elim
  ho := Pipeline.OwnSemFacts.none _
  hbody c := (hbody c).loose
  hwaits := Pipeline.hwaits_of_owed_zero _ _ _ _ L lv p fun c t => congrFun (howed c) t
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m ρ) la.win la.arr_whole c
      ((pdats m ρ p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      simp only [howed c]
      icases HO with ⟨%W, HO⟩; iexists W; isplitr; · ipureintro; exact fun _ _ => Or.inl (by rw [hrec c]; exact Set.mem_univ _)
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    rw [Pipeline.ownSems0_none]
    refine BIBase.Entails.trans (hΦo c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m ρ) ((pdats m ρ p c).share_full (hq c))
      (fun b => Win c b) (fun b => Wout c b) ((pdats m ρ p c).arrAt · (cfgs p).N) (fun w => (hF c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    simp only [howed c]
    icases HO with ⟨%W, -, HO⟩; iexists W; iexact HO

abbrev reg0 := reg m ρ 0 launch0 (W1 m ρ) (W2 m ρ) (body_obligation0 (V1 m ρ)) (fun _ _ => rfl) (fun _ => rfl) (fun _ => rfl) (fun _ _ => rfl)
  (W2_arr m ρ) (W2_of_ne m ρ) (fun _ => .rfl) (fun _ => .rfl)
abbrev reg1 := reg m ρ 1 launch1 (W3 m ρ) (W4 m ρ) (body_obligation1 (V3 m ρ)) (fun _ _ => rfl) (fun _ => rfl) (fun _ => rfl) (fun _ _ => rfl)
  (W4_arr m ρ) (W4_of_ne m ρ) (hin1 (V3 m ρ)) (hout1 (V3 m ρ))
abbrev reg2 := reg m ρ 2 launch2 (W5 m ρ) (W6 m ρ) (body_obligation2 (V5 m ρ)) (fun _ _ => rfl) (fun _ => rfl) (fun _ => rfl) (fun _ _ => rfl)
  (W6_arr m ρ) (W6_of_ne m ρ) (fun _ => .rfl) (fun _ => .rfl)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) :=
  main_segs adm (pdats m ρ) () 𝒱₀ L lv _ _ _ _ (reg0 m ρ) (reg1 m ρ) (reg2 m ρ) rfl rfl rfl rfl c

theorem last_post (c : Dev nD) :
    (iprop(StableHlo.held (c : Thread nD τ) (Pipeline.ucRefs τ sig) (W7 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => last_post m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-- An argument's buffer in a final state whose unscoped buffers hold the last contents is the launch memory's. -/
theorem arg_kept (c : Dev nD) {s : MemSt nD τ sig (Elt F)} (h : ∀ b ∈ Pipeline.ucRefs τ sig, s.mem (((c : Thread nD τ)).1, b) = W7 m ρ c b)
    {b : Ref sig .tc} (hb : b ∈ argRefs) : s.mem ((c.tc : Thread nD τ).loc b) = m ((c.tc : Thread nD τ).loc b) :=
  (h _ (mem_uc b (arg_untouched b hb).2.2.2.2.2.2.2)).trans (W7_arg m ρ c hb)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨arg_kept m ρ c (h c) (by decide), arg_kept m ρ c (h c) (by decide), arg_kept m ρ c (h c) (by decide),
     arg_kept m ρ c (h c) (by decide), arg_kept m ρ c (h c) (by decide), arg_kept m ρ c (h c) (by decide)⟩) (run_all m ρ)

end Cert.Kernel.Hand

end
-- ==== Proof.KI.R0.lean ====
import proofs.«149348_j7679401525936_1_alg».proof.Proof.Gen.KernelIdeal.Launch
import proofs.«149348_j7679401525936_1_alg».proof.Proof.Gen.KernelIdeal.Skeleton
import proofs.«149348_j7679401525936_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x1024 := Rect.unit (s := S256x1024) ![0, 0] S256x1024.size inb_S256x1024_S256x1024_0_0
abbrev r0_1 : Rect S1024x3072 := Rect.unit (s := S1024x3072) ![0, 0] S1024x3072.size inb_S1024x3072_S1024x3072_0_0
abbrev r0_2 : Rect S256x3072 := Rect.unit (s := S256x3072) ![0, 0] S256x3072.size inb_S256x3072_S256x3072_0_0

def out0_2 (x0 : Vec F S256x1024 .f32) (x1 : Vec F S1024x3072 .bf16) : Vec F S256x3072 .bf16 :=
  View.canon [⟨r0_2, k0_pay1 (View.ld x0 r0_0) (View.ld x1 r0_1)⟩]

theorem cover0_2 (p0 : Vec F S256x3072 .bf16) (y : S256x3072.Idx) :
    ∃ pc ∈ ([⟨r0_2, p0⟩] : List (View.Piece (Elt F) S256x3072 .bf16)), y ∈ pc.1.set :=
  View.cover_of_tiled [⟨r0_2, p0⟩] S256x3072.size (by rfl) y

set_option maxHeartbeats 1000000 in
theorem sound_kernel0 (c : Dev nD) (E : Set ℕ) (i : grid0.Coords) (arg1 : Memref sig .tc .vmem S256x1024 .f32) (harg1 : arg1.IsWhole) (arg2 : Memref sig .tc .vmem S1024x3072 .bf16) (harg2 : arg2.IsWhole) (arg3 : Memref sig .tc .vmem S256x3072 .bf16) (harg3 : arg3.IsWhole)
    (x0 : Vec F S256x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
import proofs.«149348_j7679401525936_1_alg».proof.Proof.Gen.KernelIdeal.Launch
import proofs.«149348_j7679401525936_1_alg».proof.Proof.Gen.KernelIdeal.Skeleton
import proofs.«149348_j7679401525936_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := (Scalar.cmpi .ne (Scalar.extui (Scalar.cmpi .slt (BitVec.ofNat 32 (i 2).val) (BitVec.ofNat 32 (i 1).val))) 0#32) = 1#1
theorem hcond1_1 : ∀ t : Fin cfg1.N, cond1_1 (grid1.coords t) ↔ t.val % 4 < t.val / 4 % 4 :=
  (by decide +kernel : ∀ t : Fin grid1.N, cond1_1 (grid1.coords t) ↔ t.val % 4 < t.val / 4 % 4)

abbrev cond1_2 (i : grid1.Coords) : Prop := (Scalar.cmpi .ne (Scalar.extui (Scalar.cmpi .eq (BitVec.ofNat 32 (i 2).val) (BitVec.ofNat 32 (i 1).val))) 0#32) = 1#1
theorem hcond1_2 : ∀ t : Fin cfg1.N, cond1_2 (grid1.coords t) ↔ t.val % 4 = t.val / 4 % 4 :=
  (by decide +kernel : ∀ t : Fin grid1.N, cond1_2 (grid1.coords t) ↔ t.val % 4 = t.val / 4 % 4)

abbrev cond1_3 (i : grid1.Coords) : Prop := (Scalar.cmpi .ne (Scalar.extui (Scalar.cmpi .sgt (BitVec.ofNat 32 (i 2).val) (BitVec.ofNat 32 (i 1).val))) 0#32) = 1#1
theorem hcond1_3 : ∀ t : Fin cfg1.N, cond1_3 (grid1.coords t) ↔ t.val / 4 % 4 < t.val % 4 :=
  (by decide +kernel : ∀ t : Fin grid1.N, cond1_3 (grid1.coords t) ↔ t.val / 4 % 4 < t.val % 4)

abbrev cond1_4 (i : grid1.Coords) : Prop := k1_cond5 i = 1#1
theorem hcond1_4 : ∀ t : Fin cfg1.N, cond1_4 (grid1.coords t) ↔ t.val % 4 = 3 :=
  (by decide +kernel : ∀ t : Fin grid1.N, cond1_4 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_4 (grid1.coords t) → cfg1.idle 3 (grid1.coords t) = true := by decide +kernel
theorem noFlush1_3 : ∀ t : Fin cfg1.N, ¬cond1_4 (grid1.coords t) → (cfg1.win 3).flush t = false := by decide +kernel
theorem liveAt1_3 : ∀ t : Fin cfg1.N, cond1_4 (grid1.coords t) → cfg1.idle 3 (grid1.coords t) = false := by decide +kernel
abbrev VO1_3 : View sig .tc .vmem S1x512x1024 .f32 := (Memref.whole cc1_stg3_0 : Memref sig .tc .vmem S1x512x1024 .f32).view
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
abbrev scM1_0 : Memref sig .tc .vmem S512x1 .f32 := Memref.whole cc1_scratch0
abbrev scM1_1 : Memref sig .tc .vmem S512x1024 .f32 := Memref.whole cc1_scratch1
abbrev VS1_0 : View sig .tc .vmem S512x1 .f32 := scM1_0.view
abbrev VS1_1 : View sig .tc .vmem S512x1024 .f32 := scM1_1.view

section RunSpec
variable (c : Dev nD) (i : grid1.Coords)
  (arg3 : Memref sig .tc .vmem S1x512x1024 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x1024 .f32) (harg6 : arg6.IsWhole)
  (arg7 : Memref sig .tc .vmem S512x1 .f32) (harg7 : arg7.IsWhole)
  (arg8 : Memref sig .tc .vmem S512x1024 .f32) (harg8 : arg8.IsWhole)
  (x0 x1 x2 : Vec F S1x512x1024 .bf16)

/-- A run that hands the output buffer back as found, from the accumulators held as `P7`, `P8`: its stored pieces and its triple. -/
abbrev RunIdle1 (P7 P8 : sProp 𝕄) : Type :=
  Σ' (L3 : List (View.Piece (Elt F) S1x512x1024 .f32)) (LS0 : List (View.Piece (Elt F) S512x1 .f32)), { LS1 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ P7 ∗ P8
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8) K }

/-- A run that also stores the output buffer, from accumulators at `xs0`, `xs1`. -/
abbrev RunStore1 (xs0 : Vec F S512x1 .f32) (xs1 : Vec F S512x1024 .f32) : Type :=
  Σ' (L3 : List (View.Piece (Elt F) S1x512x1024 .f32)) (LS0 : List (View.Piece (Elt F) S512x1 .f32)), { LS1 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8) K }

end RunSpec

end Cert.KernelIdeal.Hand

end
-- ==== Proof.KI.R1RunA.lean ====
import proofs.«149348_j7679401525936_1_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (hc2 : cond1_2 i) (hc3 : ¬cond1_3 i) (hc4 : ¬cond1_4 i)
    (x0 : Vec F S1x512x1024 .bf16) (x1 : Vec F S1x512x1024 .bf16) (x2 : Vec F S1x512x1024 .bf16) :
    RunIdle1 c i arg3 harg3 arg4 harg4 arg5 harg5 arg6 harg6 arg7 harg7 arg8 harg8 x0 x1 x2 iprop(∃ d, owns (c : Thread nD τ) arg7 fullShare d) iprop(∃ d, owns (c : Thread nD τ) arg8 fullShare d) := by
  refine ⟨[], ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Hand

end
-- ==== Proof.KI.R1RunB.lean ====
import proofs.«149348_j7679401525936_1_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : cond1_1 i) (hc2 : ¬cond1_2 i) (hc3 : ¬cond1_3 i) (hc4 : ¬cond1_4 i)
    (x0 : Vec F S1x512x1024 .bf16) (x1 : Vec F S1x512x1024 .bf16) (x2 : Vec F S1x512x1024 .bf16) :
    RunIdle1 c i arg3 harg3 arg4 harg4 arg5 harg5 arg6 harg6 arg7 harg7 arg8 harg8 x0 x1 x2 iprop(∃ d, owns (c : Thread nD τ) arg7 fullShare d) iprop(∃ d, owns (c : Thread nD τ) arg8 fullShare d) := by
  refine ⟨[], ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Hand

end
-- ==== Proof.KI.R1RunC.lean ====
import proofs.«149348_j7679401525936_1_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (hc2 : ¬cond1_2 i) (hc3 : ¬cond1_3 i) (hc4 : ¬cond1_4 i)
    (x0 : Vec F S1x512x1024 .bf16) (x1 : Vec F S1x512x1024 .bf16) (x2 : Vec F S1x512x1024 .bf16) (xs0 : Vec F S512x1 .f32) (xs1 : Vec F S512x1024 .f32) :
    RunIdle1 c i arg3 harg3 arg4 harg4 arg5 harg5 arg6 harg6 arg7 harg7 arg8 harg8 x0 x1 x2 (owns (c : Thread nD τ) arg7 fullShare xs0) (owns (c : Thread nD τ) arg8 fullShare xs1) := by
  refine ⟨[], ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Hand

end
-- ==== Proof.KI.R1RunD.lean ====
import proofs.«149348_j7679401525936_1_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_D (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (hc2 : cond1_2 i) (hc3 : ¬cond1_3 i) (hc4 : ¬cond1_4 i)
    (x0 : Vec F S1x512x1024 .bf16) (x1 : Vec F S1x512x1024 .bf16) (x2 : Vec F S1x512x1024 .bf16) (xs0 : Vec F S512x1 .f32) (xs1 : Vec F S512x1024 .f32) :
    RunIdle1 c i arg3 harg3 arg4 harg4 arg5 harg5 arg6 harg6 arg7 harg7 arg8 harg8 x0 x1 x2 (owns (c : Thread nD τ) arg7 fullShare xs0) (owns (c : Thread nD τ) arg8 fullShare xs1) := by
  refine ⟨[], ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Hand

end
-- ==== Proof.KI.R1RunE.lean ====
import proofs.«149348_j7679401525936_1_alg».proof.Proof.KI.R1RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_E (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (hc2 : ¬cond1_2 i) (hc3 : cond1_3 i) (hc4 : ¬cond1_4 i)
    (x0 : Vec F S1x512x1024 .bf16) (x1 : Vec F S1x512x1024 .bf16) (x2 : Vec F S1x512x1024 .bf16) (xs0 : Vec F S512x1 .f32) (xs1 : Vec F S512x1024 .f32) :
    RunIdle1 c i arg3 harg3 arg4 harg4 arg5 harg5 arg6 harg6 arg7 harg7 arg8 harg8 x0 x1 x2 (owns (c : Thread nD τ) arg7 fullShare xs0) (owns (c : Thread nD τ) arg8 fullShare xs1) := by
  refine ⟨[], ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Hand

end
-- ==== Proof.KI.R1RunF.lean ====
import proofs.«149348_j7679401525936_1_alg».proof.Proof.KI.R1RunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_F (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (hc2 : cond1_2 i) (hc3 : ¬cond1_3 i) (hc4 : cond1_4 i)
    (x0 : Vec F S1x512x1024 .bf16) (x1 : Vec F S1x512x1024 .bf16) (x2 : Vec F S1x512x1024 .bf16) (xs0 : Vec F S512x1 .f32) (xs1 : Vec F S512x1024 .f32) :
    RunStore1 c i arg3 harg3 arg4 harg4 arg5 harg5 arg6 harg6 arg7 harg7 arg8 harg8 x0 x1 x2 xs0 xs1 := by
  refine ⟨?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.KernelIdeal.Hand

end
-- ==== Proof.KI.R1RunG.lean ====
import proofs.«149348_j7679401525936_1_alg».proof.Proof.KI.R1RunF

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_G (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (hc2 : ¬cond1_2 i) (hc3 : cond1_3 i) (hc4 : cond1_4 i)
    (x0 : Vec F S1x512x1024 .bf16) (x1 : Vec F S1x512x1024 .bf16) (x2 : Vec F S1x512x1024 .bf16) (xs0 : Vec F S512x1 .f32) (xs1 : Vec F S512x1024 .f32) :
    RunStore1 c i arg3 harg3 arg4 harg4 arg5 harg5 arg6 harg6 arg7 harg7 arg8 harg8 x0 x1 x2 xs0 xs1 := by
  refine ⟨?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | exact hc0 | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.KernelIdeal.Hand

end
-- ==== Proof.KI.R1Outs.lean ====
import proofs.«149348_j7679401525936_1_alg».proof.Proof.KI.R1RunG
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords)
  (arg3 : Memref sig .tc .vmem S1x512x1024 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x1024 .f32) (harg6 : arg6.IsWhole)
  (arg7 : Memref sig .tc .vmem S512x1 .f32) (harg7 : arg7.IsWhole)
  (arg8 : Memref sig .tc .vmem S512x1024 .f32) (harg8 : arg8.IsWhole)

section CaseA
variable (hc0 : cond1_0 i) (hc1 : ¬cond1_1 i) (hc2 : cond1_2 i) (hc3 : ¬cond1_3 i) (hc4 : ¬cond1_4 i)
  (x0 x1 x2 : Vec F S1x512x1024 .bf16)

local notation "runA" => kernelRun1_A c i arg3 harg3 arg4 harg4 arg5 harg5 arg6 harg6 arg7 harg7 arg8 harg8 hc0 hc1 hc2 hc3 hc4 x0 x1 x2

def out1_A_3 : Vec F S1x512x1024 .f32 :=
  VO1_3.read (Elt F) (VO1_3.writes (Elt F) VO1_3.junk (runA).1)

theorem scover1_A_0 (y : S512x1.Idx) : ∃ pc ∈ (runA).2.1, y ∈ pc.1.set :=
  View.cover_of_tiledL (runA).2.1 S512x1.size (by sl_kernel_rfl) y

def sout1_A_0 : Vec F S512x1 .f32 :=
  VS1_0.read (Elt F) (VS1_0.writes (Elt F) VS1_0.junk (runA).2.1)

theorem scover1_A_1 (y : S512x1024.Idx) : ∃ pc ∈ (runA).2.2.1, y ∈ pc.1.set :=
  View.cover_of_tiledL (runA).2.2.1 S512x1024.size (by sl_kernel_rfl) y

def sout1_A_1 : Vec F S512x1024 .f32 :=
  VS1_1.read (Elt F) (VS1_1.writes (Elt F) VS1_1.junk (runA).2.2.1)

end CaseA

section CaseB
variable (hc0 : cond1_0 i) (hc1 : cond1_1 i) (hc2 : ¬cond1_2 i) (hc3 : ¬cond1_3 i) (hc4 : ¬cond1_4 i)
  (x0 x1 x2 : Vec F S1x512x1024 .bf16)

local notation "runB" => kernelRun1_B c i arg3 harg3 arg4 harg4 arg5 harg5 arg6 harg6 arg7 harg7 arg8 harg8 hc0 hc1 hc2 hc3 hc4 x0 x1 x2

def out1_B_3 : Vec F S1x512x1024 .f32 :=
  VO1_3.read (Elt F) (VO1_3.writes (Elt F) VO1_3.junk (runB).1)

theorem scover1_B_0 (y : S512x1.Idx) : ∃ pc ∈ (runB).2.1, y ∈ pc.1.set :=
  View.cover_of_tiledL (runB).2.1 S512x1.size (by sl_kernel_rfl) y

def sout1_B_0 : Vec F S512x1 .f32 :=
  VS1_0.read (Elt F) (VS1_0.writes (Elt F) VS1_0.junk (runB).2.1)

theorem scover1_B_1 (y : S512x1024.Idx) : ∃ pc ∈ (runB).2.2.1, y ∈ pc.1.set :=
  View.cover_of_tiledL (runB).2.2.1 S512x1024.size (by sl_kernel_rfl) y

def sout1_B_1 : Vec F S512x1024 .f32 :=
  VS1_1.read (Elt F) (VS1_1.writes (Elt F) VS1_1.junk (runB).2.2.1)

end CaseB

section CaseC
variable (hc0 : ¬cond1_0 i) (hc1 : cond1_1 i) (hc2 : ¬cond1_2 i) (hc3 : ¬cond1_3 i) (hc4 : ¬cond1_4 i)
  (x0 x1 x2 : Vec F S1x512x1024 .bf16) (xs0 : Vec F S512x1 .f32) (xs1 : Vec F S512x1024 .f32)

local notation "runC" => kernelRun1_C c i arg3 harg3 arg4 harg4 arg5 harg5 arg6 harg6 arg7 harg7 arg8 harg8 hc0 hc1 hc2 hc3 hc4 x0 x1 x2 xs0 xs1

def out1_C_3 : Vec F S1x512x1024 .f32 :=
  VO1_3.read (Elt F) (VO1_3.writes (Elt F) VO1_3.junk (runC).1)

theorem scover1_C_0 (y : S512x1.Idx) : ∃ pc ∈ (runC).2.1, y ∈ pc.1.set :=
  View.cover_of_tiledL (runC).2.1 S512x1.size (by sl_kernel_rfl) y

def sout1_C_0 : Vec F S512x1 .f32 :=
  VS1_0.read (Elt F) (VS1_0.writes (Elt F) VS1_0.junk (runC).2.1)

theorem scover1_C_1 (y : S512x1024.Idx) : ∃ pc ∈ (runC).2.2.1, y ∈ pc.1.set :=
  View.cover_of_tiledL (runC).2.2.1 S512x1024.size (by sl_kernel_rfl) y

def sout1_C_1 : Vec F S512x1024 .f32 :=
  VS1_1.read (Elt F) (VS1_1.writes (Elt F) VS1_1.junk (runC).2.2.1)

end CaseC

section CaseD
variable (hc0 : ¬cond1_0 i) (hc1 : ¬cond1_1 i) (hc2 : cond1_2 i) (hc3 : ¬cond1_3 i) (hc4 : ¬cond1_4 i)
  (x0 x1 x2 : Vec F S1x512x1024 .bf16) (xs0 : Vec F S512x1 .f32) (xs1 : Vec F S512x1024 .f32)

local notation "runD" => kernelRun1_D c i arg3 harg3 arg4 harg4 arg5 harg5 arg6 harg6 arg7 harg7 arg8 harg8 hc0 hc1 hc2 hc3 hc4 x0 x1 x2 xs0 xs1

def out1_D_3 : Vec F S1x512x1024 .f32 :=
  VO1_3.read (Elt F) (VO1_3.writes (Elt F) VO1_3.junk (runD).1)

theorem scover1_D_0 (y : S512x1.Idx) : ∃ pc ∈ (runD).2.1, y ∈ pc.1.set :=
  View.cover_of_tiledL (runD).2.1 S512x1.size (by sl_kernel_rfl) y

def sout1_D_0 : Vec F S512x1 .f32 :=
  VS1_0.read (Elt F) (VS1_0.writes (Elt F) VS1_0.junk (runD).2.1)

theorem scover1_D_1 (y : S512x1024.Idx) : ∃ pc ∈ (runD).2.2.1, y ∈ pc.1.set :=
  View.cover_of_tiledL (runD).2.2.1 S512x1024.size (by sl_kernel_rfl) y

def sout1_D_1 : Vec F S512x1024 .f32 :=
  VS1_1.read (Elt F) (VS1_1.writes (Elt F) VS1_1.junk (runD).2.2.1)

end CaseD

section CaseE
variable (hc0 : ¬cond1_0 i) (hc1 : ¬cond1_1 i) (hc2 : ¬cond1_2 i) (hc3 : cond1_3 i) (hc4 : ¬cond1_4 i)
  (x0 x1 x2 : Vec F S1x512x1024 .bf16) (xs0 : Vec F S512x1 .f32) (xs1 : Vec F S512x1024 .f32)

local notation "runE" => kernelRun1_E c i arg3 harg3 arg4 harg4 arg5 harg5 arg6 harg6 arg7 harg7 arg8 harg8 hc0 hc1 hc2 hc3 hc4 x0 x1 x2 xs0 xs1

def out1_E_3 : Vec F S1x512x1024 .f32 :=
  VO1_3.read (Elt F) (VO1_3.writes (Elt F) VO1_3.junk (runE).1)

theorem scover1_E_0 (y : S512x1.Idx) : ∃ pc ∈ (runE).2.1, y ∈ pc.1.set :=
  View.cover_of_tiledL (runE).2.1 S512x1.size (by sl_kernel_rfl) y

def sout1_E_0 : Vec F S512x1 .f32 :=
  VS1_0.read (Elt F) (VS1_0.writes (Elt F) VS1_0.junk (runE).2.1)

theorem scover1_E_1 (y : S512x1024.Idx) : ∃ pc ∈ (runE).2.2.1, y ∈ pc.1.set :=
  View.cover_of_tiledL (runE).2.2.1 S512x1024.size (by sl_kernel_rfl) y

def sout1_E_1 : Vec F S512x1024 .f32 :=
  VS1_1.read (Elt F) (VS1_1.writes (Elt F) VS1_1.junk (runE).2.2.1)

end CaseE

section CaseF
variable (hc0 : ¬cond1_0 i) (hc1 : ¬cond1_1 i) (hc2 : cond1_2 i) (hc3 : ¬cond1_3 i) (hc4 : cond1_4 i)
  (x0 x1 x2 : Vec F S1x512x1024 .bf16) (xs0 : Vec F S512x1 .f32) (xs1 : Vec F S512x1024 .f32)

local notation "runF" => kernelRun1_F c i arg3 harg3 arg4 harg4 arg5 harg5 arg6 harg6 arg7 harg7 arg8 harg8 hc0 hc1 hc2 hc3 hc4 x0 x1 x2 xs0 xs1

theorem cover1_F_3 (y : S1x512x1024.Idx) : ∃ pc ∈ (runF).1, y ∈ pc.1.set :=
  View.cover_of_tiledL (runF).1 S1x512x1024.size (by sl_kernel_rfl) y

def out1_F_3 : Vec F S1x512x1024 .f32 :=
  VO1_3.read (Elt F) (VO1_3.writes (Elt F) VO1_3.junk (runF).1)

theorem scover1_F_0 (y : S512x1.Idx) : ∃ pc ∈ (runF).2.1, y ∈ pc.1.set :=
  View.cover_of_tiledL (runF).2.1 S512x1.size (by sl_kernel_rfl) y

def sout1_F_0 : Vec F S512x1 .f32 :=
  VS1_0.read (Elt F) (VS1_0.writes (Elt F) VS1_0.junk (runF).2.1)

theorem scover1_F_1 (y : S512x1024.Idx) : ∃ pc ∈ (runF).2.2.1, y ∈ pc.1.set :=
  View.cover_of_tiledL (runF).2.2.1 S512x1024.size (by sl_kernel_rfl) y

def sout1_F_1 : Vec F S512x1024 .f32 :=
  VS1_1.read (Elt F) (VS1_1.writes (Elt F) VS1_1.junk (runF).2.2.1)

end CaseF

section CaseG
variable (hc0 : ¬cond1_0 i) (hc1 : ¬cond1_1 i) (hc2 : ¬cond1_2 i) (hc3 : cond1_3 i) (hc4 : cond1_4 i)
  (x0 x1 x2 : Vec F S1x512x1024 .bf16) (xs0 : Vec F S512x1 .f32) (xs1 : Vec F S512x1024 .f32)

local notation "runG" => kernelRun1_G c i arg3 harg3 arg4 harg4 arg5 harg5 arg6 harg6 arg7 harg7 arg8 harg8 hc0 hc1 hc2 hc3 hc4 x0 x1 x2 xs0 xs1

theorem cover1_G_3 (y : S1x512x1024.Idx) : ∃ pc ∈ (runG).1, y ∈ pc.1.set :=
  View.cover_of_tiledL (runG).1 S1x512x1024.size (by sl_kernel_rfl) y

def out1_G_3 : Vec F S1x512x1024 .f32 :=
  VO1_3.read (Elt F) (VO1_3.writes (Elt F) VO1_3.junk (runG).1)

theorem scover1_G_0 (y : S512x1.Idx) : ∃ pc ∈ (runG).2.1, y ∈ pc.1.set :=
  View.cover_of_tiledL (runG).2.1 S512x1.size (by sl_kernel_rfl) y

def sout1_G_0 : Vec F S512x1 .f32 :=
  VS1_0.read (Elt F) (VS1_0.writes (Elt F) VS1_0.junk (runG).2.1)

theorem scover1_G_1 (y : S512x1024.Idx) : ∃ pc ∈ (runG).2.2.1, y ∈ pc.1.set :=
  View.cover_of_tiledL (runG).2.2.1 S512x1024.size (by sl_kernel_rfl) y

def sout1_G_1 : Vec F S512x1024 .f32 :=
  VS1_1.read (Elt F) (VS1_1.writes (Elt F) VS1_1.junk (runG).2.2.1)

end CaseG

end Cert.KernelIdeal.Hand

end
-- ==== Proof.KI.R1Dat.lean ====
import proofs.«149348_j7679401525936_1_alg».proof.Proof.KI.R1Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtPoint
variable (V : (c : Dev nD) → (b : Ref sig .tc) → Buf (Elt F) ((c : Thread nD τ).loc b))
variable (c : Dev nD) (t : Fin cfg1.N)

section PtA
variable (h0 : t.val % 4 = 0) (h1 : ¬t.val % 4 < t.val / 4 % 4) (h2 : t.val % 4 = t.val / 4 % 4) (h3 : ¬t.val / 4 % 4 < t.val % 4) (h4 : ¬t.val % 4 = 3)
local notation "atA[" f "]" => f c (grid1.coords t) (ms1_0 t) (hs1_0 t) (ms1_1 t) (hs1_1 t) (ms1_2 t) (hs1_2 t) (ms1_3 t) (hs1_3 t) scM1_0 (Memref.isWhole_whole _) scM1_1 (Memref.isWhole_whole _) (Iff.mpr (hcond1_0 t) h0) (mt (Iff.mp (hcond1_1 t)) h1) (Iff.mpr (hcond1_2 t) h2) (mt (Iff.mp (hcond1_3 t)) h3) (mt (Iff.mp (hcond1_4 t)) h4) (iblk1 V c 0 t) (iblk1 V c 1 t) (iblk1 V c 2 t)
def ptA : Vec F S1x512x1024 .f32 × Vec F S512x1 .f32 × Vec F S512x1024 .f32 := (atA[out1_A_3], atA[sout1_A_0], atA[sout1_A_1])
end PtA

section PtB
variable (h0 : t.val % 4 = 0) (h1 : t.val % 4 < t.val / 4 % 4) (h2 : ¬t.val % 4 = t.val / 4 % 4) (h3 : ¬t.val / 4 % 4 < t.val % 4) (h4 : ¬t.val % 4 = 3)
local notation "atB[" f "]" => f c (grid1.coords t) (ms1_0 t) (hs1_0 t) (ms1_1 t) (hs1_1 t) (ms1_2 t) (hs1_2 t) (ms1_3 t) (hs1_3 t) scM1_0 (Memref.isWhole_whole _) scM1_1 (Memref.isWhole_whole _) (Iff.mpr (hcond1_0 t) h0) (Iff.mpr (hcond1_1 t) h1) (mt (Iff.mp (hcond1_2 t)) h2) (mt (Iff.mp (hcond1_3 t)) h3) (mt (Iff.mp (hcond1_4 t)) h4) (iblk1 V c 0 t) (iblk1 V c 1 t) (iblk1 V c 2 t)
def ptB : Vec F S1x512x1024 .f32 × Vec F S512x1 .f32 × Vec F S512x1024 .f32 := (atB[out1_B_3], atB[sout1_B_0], atB[sout1_B_1])
end PtB

section PtC
variable (h0 : ¬t.val % 4 = 0) (h1 : t.val % 4 < t.val / 4 % 4) (h2 : ¬t.val % 4 = t.val / 4 % 4) (h3 : ¬t.val / 4 % 4 < t.val % 4) (h4 : ¬t.val % 4 = 3)
  (xs0 : Vec F S512x1 .f32) (xs1 : Vec F S512x1024 .f32)
local notation "atC[" f "]" => f c (grid1.coords t) (ms1_0 t) (hs1_0 t) (ms1_1 t) (hs1_1 t) (ms1_2 t) (hs1_2 t) (ms1_3 t) (hs1_3 t) scM1_0 (Memref.isWhole_whole _) scM1_1 (Memref.isWhole_whole _) (mt (Iff.mp (hcond1_0 t)) h0) (Iff.mpr (hcond1_1 t) h1) (mt (Iff.mp (hcond1_2 t)) h2) (mt (Iff.mp (hcond1_3 t)) h3) (mt (Iff.mp (hcond1_4 t)) h4) (iblk1 V c 0 t) (iblk1 V c 1 t) (iblk1 V c 2 t) xs0 xs1
def ptC : Vec F S1x512x1024 .f32 × Vec F S512x1 .f32 × Vec F S512x1024 .f32 := (atC[out1_C_3], atC[sout1_C_0], atC[sout1_C_1])
end PtC

section PtD
variable (h0 : ¬t.val % 4 = 0) (h1 : ¬t.val % 4 < t.val / 4 % 4) (h2 : t.val % 4 = t.val / 4 % 4) (h3 : ¬t.val / 4 % 4 < t.val % 4) (h4 : ¬t.val % 4 = 3)
  (xs0 : Vec F S512x1 .f32) (xs1 : Vec F S512x1024 .f32)
local notation "atD[" f "]" => f c (grid1.coords t) (ms1_0 t) (hs1_0 t) (ms1_1 t) (hs1_1 t) (ms1_2 t) (hs1_2 t) (ms1_3 t) (hs1_3 t) scM1_0 (Memref.isWhole_whole _) scM1_1 (Memref.isWhole_whole _) (mt (Iff.mp (hcond1_0 t)) h0) (mt (Iff.mp (hcond1_1 t)) h1) (Iff.mpr (hcond1_2 t) h2) (mt (Iff.mp (hcond1_3 t)) h3) (mt (Iff.mp (hcond1_4 t)) h4) (iblk1 V c 0 t) (iblk1 V c 1 t) (iblk1 V c 2 t) xs0 xs1
def ptD : Vec F S1x512x1024 .f32 × Vec F S512x1 .f32 × Vec F S512x1024 .f32 := (atD[out1_D_3], atD[sout1_D_0], atD[sout1_D_1])
end PtD

section PtE
variable (h0 : ¬t.val % 4 = 0) (h1 : ¬t.val % 4 < t.val / 4 % 4) (h2 : ¬t.val % 4 = t.val / 4 % 4) (h3 : t.val / 4 % 4 < t.val % 4) (h4 : ¬t.val % 4 = 3)
  (xs0 : Vec F S512x1 .f32) (xs1 : Vec F S512x1024 .f32)
local notation "atE[" f "]" => f c (grid1.coords t) (ms1_0 t) (hs1_0 t) (ms1_1 t) (hs1_1 t) (ms1_2 t) (hs1_2 t) (ms1_3 t) (hs1_3 t) scM1_0 (Memref.isWhole_whole _) scM1_1 (Memref.isWhole_whole _) (mt (Iff.mp (hcond1_0 t)) h0) (mt (Iff.mp (hcond1_1 t)) h1) (mt (Iff.mp (hcond1_2 t)) h2) (Iff.mpr (hcond1_3 t) h3) (mt (Iff.mp (hcond1_4 t)) h4) (iblk1 V c 0 t) (iblk1 V c 1 t) (iblk1 V c 2 t) xs0 xs1
def ptE : Vec F S1x512x1024 .f32 × Vec F S512x1 .f32 × Vec F S512x1024 .f32 := (atE[out1_E_3], atE[sout1_E_0], atE[sout1_E_1])
end PtE

section PtF
variable (h0 : ¬t.val % 4 = 0) (h1 : ¬t.val % 4 < t.val / 4 % 4) (h2 : t.val % 4 = t.val / 4 % 4) (h3 : ¬t.val / 4 % 4 < t.val % 4) (h4 : t.val % 4 = 3)
  (xs0 : Vec F S512x1 .f32) (xs1 : Vec F S512x1024 .f32)
local notation "atF[" f "]" => f c (grid1.coords t) (ms1_0 t) (hs1_0 t) (ms1_1 t) (hs1_1 t) (ms1_2 t) (hs1_2 t) (ms1_3 t) (hs1_3 t) scM1_0 (Memref.isWhole_whole _) scM1_1 (Memref.isWhole_whole _) (mt (Iff.mp (hcond1_0 t)) h0) (mt (Iff.mp (hcond1_1 t)) h1) (Iff.mpr (hcond1_2 t) h2) (mt (Iff.mp (hcond1_3 t)) h3) (Iff.mpr (hcond1_4 t) h4) (iblk1 V c 0 t) (iblk1 V c 1 t) (iblk1 V c 2 t) xs0 xs1
def ptF : Vec F S1x512x1024 .f32 × Vec F S512x1 .f32 × Vec F S512x1024 .f32 := (atF[out1_F_3], atF[sout1_F_0], atF[sout1_F_1])
end PtF

section PtG
variable (h0 : ¬t.val % 4 = 0) (h1 : ¬t.val % 4 < t.val / 4 % 4) (h2 : ¬t.val % 4 = t.val / 4 % 4) (h3 : t.val / 4 % 4 < t.val % 4) (h4 : t.val % 4 = 3)
  (xs0 : Vec F S512x1 .f32) (xs1 : Vec F S512x1024 .f32)
local notation "atG[" f "]" => f c (grid1.coords t) (ms1_0 t) (hs1_0 t) (ms1_1 t) (hs1_1 t) (ms1_2 t) (hs1_2 t) (ms1_3 t) (hs1_3 t) scM1_0 (Memref.isWhole_whole _) scM1_1 (Memref.isWhole_whole _) (mt (Iff.mp (hcond1_0 t)) h0) (mt (Iff.mp (hcond1_1 t)) h1) (mt (Iff.mp (hcond1_2 t)) h2) (Iff.mpr (hcond1_3 t) h3) (Iff.mpr (hcond1_4 t) h4) (iblk1 V c 0 t) (iblk1 V c 1 t) (iblk1 V c 2 t) xs0 xs1
def ptG : Vec F S1x512x1024 .f32 × Vec F S512x1 .f32 × Vec F S512x1024 .f32 := (atG[out1_G_3], atG[sout1_G_0], atG[sout1_G_1])
end PtG

end AtPoint

variable (V : (c : Dev nD) → (b : Ref sig .tc) → Buf (Elt F) ((c : Thread nD τ).loc b))

def outsAt1 (c : Dev nD) : (n : ℕ) → n < cfg1.N → Vec F S1x512x1024 .f32 × Vec F S512x1 .f32 × Vec F S512x1024 .f32
  | 0, hn => ptA V c ⟨0, hn⟩ (by simp) (by simp) (by simp) (by simp) (by simp)
  | n + 1, hn =>
    if h1 : (n + 1) % 4 < (n + 1) / 4 % 4 then
      if h0 : (n + 1) % 4 = 0 then ptB V c ⟨n + 1, hn⟩ h0 h1 (by dsimp only; omega) (by dsimp only; omega) (by dsimp only; omega)
      else ptC V c ⟨n + 1, hn⟩ h0 h1 (by dsimp only; omega) (by dsimp only; omega) (by dsimp only; omega) (outsAt1 c n (Nat.lt_of_succ_lt hn)).2.1 (outsAt1 c n (Nat.lt_of_succ_lt hn)).2.2
    else if h2 : (n + 1) % 4 = (n + 1) / 4 % 4 then
      if h0 : (n + 1) % 4 = 0 then ptA V c ⟨n + 1, hn⟩ h0 h1 h2 (by dsimp only; omega) (by dsimp only; omega)
      else if h4 : (n + 1) % 4 = 3 then ptF V c ⟨n + 1, hn⟩ h0 h1 h2 (by dsimp only; omega) h4 (outsAt1 c n (Nat.lt_of_succ_lt hn)).2.1 (outsAt1 c n (Nat.lt_of_succ_lt hn)).2.2
      else ptD V c ⟨n + 1, hn⟩ h0 h1 h2 (by dsimp only; omega) h4 (outsAt1 c n (Nat.lt_of_succ_lt hn)).2.1 (outsAt1 c n (Nat.lt_of_succ_lt hn)).2.2
    else if h4 : (n + 1) % 4 = 3 then ptG V c ⟨n + 1, hn⟩ (by dsimp only; omega) h1 h2 (by dsimp only; omega) h4 (outsAt1 c n (Nat.lt_of_succ_lt hn)).2.1 (outsAt1 c n (Nat.lt_of_succ_lt hn)).2.2
    else ptE V c ⟨n + 1, hn⟩ (by dsimp only; omega) h1 h2 (by dsimp only; omega) h4 (outsAt1 c n (Nat.lt_of_succ_lt hn)).2.1 (outsAt1 c n (Nat.lt_of_succ_lt hn)).2.2

theorem outsAt1_A (c : Dev nD) (t : Fin cfg1.N) (h0 : t.val % 4 = 0) (h1 : ¬t.val % 4 < t.val / 4 % 4) (h2 : t.val % 4 = t.val / 4 % 4)
    (h3 : ¬t.val / 4 % 4 < t.val % 4) (h4 : ¬t.val % 4 = 3) :
    outsAt1 V c t.val t.isLt = ptA V c t h0 h1 h2 h3 h4 := by
  obtain ⟨n, hn⟩ := t
  cases n with
  | zero => exact rfl
  | succ n => exact (dif_neg h1).trans ((dif_pos h2).trans (dif_pos h0))

theorem outsAt1_B (c : Dev nD) (t : Fin cfg1.N) (h0 : t.val % 4 = 0) (h1 : t.val % 4 < t.val / 4 % 4) (h2 : ¬t.val % 4 = t.val / 4 % 4)
    (h3 : ¬t.val / 4 % 4 < t.val % 4) (h4 : ¬t.val % 4 = 3) :
    outsAt1 V c t.val t.isLt = ptB V c t h0 h1 h2 h3 h4 := by
  obtain ⟨n, hn⟩ := t
  cases n with
  | zero => exact absurd h1 (by simp)
  | succ n => exact (dif_pos h1).trans (dif_pos h0)

theorem outsAt1_C (c : Dev nD) (t : Fin cfg1.N) (h0 : ¬t.val % 4 = 0) (h1 : t.val % 4 < t.val / 4 % 4) (h2 : ¬t.val % 4 = t.val / 4 % 4)
    (h3 : ¬t.val / 4 % 4 < t.val % 4) (h4 : ¬t.val % 4 = 3) :
    outsAt1 V c t.val t.isLt = ptC V c t h0 h1 h2 h3 h4
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (by simp) h0
  | succ n => exact (dif_pos h1).trans (dif_neg h0)

theorem outsAt1_D (c : Dev nD) (t : Fin cfg1.N) (h0 : ¬t.val % 4 = 0) (h1 : ¬t.val % 4 < t.val / 4 % 4) (h2 : t.val % 4 = t.val / 4 % 4)
    (h3 : ¬t.val / 4 % 4 < t.val % 4) (h4 : ¬t.val % 4 = 3) :
    outsAt1 V c t.val t.isLt = ptD V c t h0 h1 h2 h3 h4
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (by simp) h0
  | succ n => exact (dif_neg h1).trans ((dif_pos h2).trans ((dif_neg h0).trans (dif_neg h4)))

theorem outsAt1_E (c : Dev nD) (t : Fin cfg1.N) (h0 : ¬t.val % 4 = 0) (h1 : ¬t.val % 4 < t.val / 4 % 4) (h2 : ¬t.val % 4 = t.val / 4 % 4)
    (h3 : t.val / 4 % 4 < t.val % 4) (h4 : ¬t.val % 4 = 3) :
    outsAt1 V c t.val t.isLt = ptE V c t h0 h1 h2 h3 h4
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (by simp) h0
  | succ n => exact (dif_neg h1).trans ((dif_neg h2).trans (dif_neg h4))

theorem outsAt1_F (c : Dev nD) (t : Fin cfg1.N) (h0 : ¬t.val % 4 = 0) (h1 : ¬t.val % 4 < t.val / 4 % 4) (h2 : t.val % 4 = t.val / 4 % 4)
    (h3 : ¬t.val / 4 % 4 < t.val % 4) (h4 : t.val % 4 = 3) :
    outsAt1 V c t.val t.isLt = ptF V c t h0 h1 h2 h3 h4
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (by simp) h0
  | succ n => exact (dif_neg h1).trans ((dif_pos h2).trans ((dif_neg h0).trans (dif_pos h4)))

theorem outsAt1_G (c : Dev nD) (t : Fin cfg1.N) (h0 : ¬t.val % 4 = 0) (h1 : ¬t.val % 4 < t.val / 4 % 4) (h2 : ¬t.val % 4 = t.val / 4 % 4)
    (h3 : t.val / 4 % 4 < t.val % 4) (h4 : t.val % 4 = 3) :
    outsAt1 V c t.val t.isLt = ptG V c t h0 h1 h2 h3 h4
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (by simp) h0
  | succ n => exact (dif_neg h1).trans ((dif_neg h2).trans (dif_pos h4))

/-- The region's scoped buffers other than the two accumulators, each at some contents. -/
def scoped1 (c : Dev nD) : sProp 𝕄 :=
  bigSep ((((Finset.univ.filter fun b : Ref sig .tc => b.isScoped) \ Finset.univ.image (Pipeline.stageRef spec1)).erase cc1_scratch0).erase cc1_scratch1)
    (fun b => iprop(∃ f : Buf (Elt F) ((c : Thread nD τ).loc b), ((c : Thread nD τ).loc b) ↦{fullShare} f))

def rest1 (c : Dev nD) : sProp 𝕄 := iprop(scoped1 c ∗ ∃ r, prngReg c r)

/-- The invariant before the first point: the two accumulators at some contents, the other scoped buffers, the generator register. -/
theorem PhiA1_split (c : Dev nD) : (Pipeline.ΦA spec1 c : sProp 𝕄)
    = iprop(((∃ d, owns (c : Thread nD τ) scM1_0 fullShare d) ∗ (∃ d, owns (c : Thread nD τ) scM1_1 fullShare d) ∗ scoped1 c) ∗ ∃ r, prngReg c r) := by
  unfold Pipeline.ΦA Pipeline.scopedRest scoped1
  rw [bigSep_erase (i := cc1_scratch0) (by decide), bigSep_erase (i := cc1_scratch1) (by decide)]
  simp only [scM1_0, scM1_1, owns_whole]
  rfl

theorem PhiA1_open (c : Dev nD) : (Pipeline.ΦA spec1 c : sProp 𝕄)
    ⊢ iprop(((∃ d, owns (c : Thread nD τ) scM1_0 fullShare d) ∗ (∃ d, owns (c : Thread nD τ) scM1_1 fullShare d)) ∗ rest1 c) := by
  rw [PhiA1_split]; unfold rest1
  iintro ⟨⟨HS0, HS1, Hr⟩, Hg⟩
  isplitl [HS0 HS1]
  · isplitl [HS0]; · iexact HS0
    iexact HS1
  isplitl [Hr]; · iexact Hr
  iexact Hg

theorem PhiA1_close (c : Dev nD) :
    iprop(((∃ d, owns (c : Thread nD τ) scM1_0 fullShare d) ∗ (∃ d, owns (c : Thread nD τ) scM1_1 fullShare d)) ∗ rest1 c)
      ⊢ (Pipeline.ΦA spec1 c : sProp 𝕄) := by
  rw [PhiA1_split]; unfold rest1
  iintro ⟨⟨HS0, HS1⟩, Hr, Hg⟩
  isplitr [Hg]
  · isplitl [HS0]; · iexact HS0
    isplitl [HS1]; · iexact HS1
    iexact Hr
  iexact Hg

def PhiS1 (c : Dev nD) : (n : ℕ) → n ≤ cfg1.N → sProp 𝕄
  | 0, _ => Pipeline.ΦA spec1 c
  | n + 1, hn => iprop((owns (c : Thread nD τ) scM1_0 fullShare (outsAt1 V c n hn).2.1
      ∗ owns (c : Thread nD τ) scM1_1 fullShare (outsAt1 V c n hn).2.2) ∗ rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare (outsAt1 V c n hn).2.1
      ∗ owns (c : Thread nD τ) scM1_1 fullShare (outsAt1 V c n hn).2.2) ∗ rest1 c) := rfl

theorem PhiS1_pos (c : Dev nD) (n : ℕ) (h : n ≤ cfg1.N) (hz : n ≠ 0) :
    PhiS1 V c n h = iprop((owns (c : Thread nD τ) scM1_0 fullShare (outsAt1 V c (n - 1) (by omega)).2.1
      ∗ owns (c : Thread nD τ) scM1_1 fullShare (outsAt1 V c (n - 1) (by omega)).2.2) ∗ rest1 c) := by
  cases n with
  | zero => exact absurd rfl hz
  | succ n => rfl

theorem PhiS1_open (c : Dev nD) (n : ℕ) (h : n ≤ cfg1.N) :
    PhiS1 V c n h
      ⊢ iprop(((∃ d, owns (c : Thread nD τ) scM1_0 fullShare d) ∗ (∃ d, owns (c : Thread nD τ) scM1_1 fullShare d)) ∗ rest1 c) := by
  cases n with
  | zero => exact PhiA1_open c
  | succ n =>
    rw [PhiS1_succ]
    iintro ⟨⟨HS0, HS1⟩, Hr⟩
    isplitr [Hr]
    · isplitl [HS0]; · iexists _; iexact HS0
      iexists _; iexact HS1
    iexact Hr

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

end Cert.KernelIdeal.Hand

end
-- ==== Proof.KI.R1Body.lean ====
import proofs.«149348_j7679401525936_1_alg».proof.Proof.KI.R1Dat

namespace Cert.KernelIdeal.Hand

open Cert.KernelIdeal Cert.KernelIdeal.Gen Idealize.ShloMosaic Idealize.ShloMosaic.TcCoe
open Idealize.SL.RA Idealize.SL.BI Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Writes that cover a memref leave it at their read-back, whatever it held and through whichever view it is read.
theorem owns_of_cover1 (c : Dev nD) {sp : Space} {s : Shape} {e : EltTy} (m : Memref sig .tc sp s e) {κ' : Kind} {sp' : Space}
    (v' : View sig κ' sp' s e) (f' : v'.ty.Contents (Elt F)) {L : List (View.Piece (Elt F) s e)} (h : ∀ y, ∃ p ∈ L, y ∈ p.1.set) :
    iprop(∃ f, m.view.loc (c : Thread nD τ) ↦[m.view.set]{fullShare} m.view.writes (Elt F) f L)
      ⊢ (owns (c : Thread nD τ) m fullShare (v'.read (Elt F) (v'.writes (Elt F) f' L)) : sProp 𝕄) := by
  unfold owns; iintro ⟨%f, H⟩; iexists _; isplitr
  swap; · iexact H
  ipureintro; exact View.read_writes_of_cover _ _ _ _ _ h

-- At a point where a window is not idle its post is the buffer at the proof data's contents.
theorem leaves_live1 (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

-- The run's covering pieces read back as the recurrence's components, so its continuation holds the post of every window and the next invariant.
theorem body1_of_run (c : Dev nD) (t : Fin cfg1.N) {L3 : List (View.Piece (Elt F) S1x512x1024 .f32)}
    {LS0 : List (View.Piece (Elt F) S512x1 .f32)} {LS1 : List (View.Piece (Elt F) S512x1024 .f32)} {X : Type} {P0 P1 : sProp 𝕄} {P3 Q3 : X → sProp 𝕄}
    (ho : outsAt1 V c t.val t.isLt = (VO1_3.read (Elt F) (VO1_3.writes (Elt F) VO1_3.junk L3),
      VS1_0.read (Elt F) (VS1_0.writes (Elt F) VS1_0.junk LS0), VS1_1.read (Elt F) (VS1_1.writes (Elt F) VS1_1.junk LS1)))
    (hS0 : ∀ y, ∃ p ∈ LS0, y ∈ p.1.set) (hS1 : ∀ y, ∃ p ∈ LS1, y ∈ p.1.set)
    (hΦ : (dat1 V c).Φ t.castSucc ⊢ iprop((P0 ∗ P1) ∗ rest1 c))
    (hin : iprop(∃ d, owns (c : Thread nD τ) (ms1_3 t) fullShare ((dat1 V c).before 3 t d)) ⊢ iprop(∃ x, P3 x))
    (hout : ∀ x, Q3 x ⊢ (dat1 V c).leavesExact 3 t)
    (hrun : ∀ x (K : PUnit → sProp 𝕄),
      iprop(owns (c : Thread nD τ) (ms1_0 t) fullShare (iblk1 V c 0 t) ∗ owns (c : Thread nD τ) (ms1_1 t) fullShare (iblk1 V c 1 t)
          ∗ owns (c : Thread nD τ) (ms1_2 t) fullShare (iblk1 V c 2 t) ∗ P3 x ∗ P0 ∗ P1
          ∗ (iprop(owns (c : Thread nD τ) (ms1_0 t) fullShare (iblk1 V c 0 t) ∗ owns (c : Thread nD τ) (ms1_1 t) fullShare (iblk1 V c 1 t)
              ∗ owns (c : Thread nD τ) (ms1_2 t) fullShare (iblk1 V c 2 t) ∗ Q3 x
              ∗ (∃ f, VS1_0.loc (c : Thread nD τ) ↦[VS1_0.set]{fullShare} VS1_0.writes (Elt F) f LS0)
              ∗ (∃ f, VS1_1.loc (c : Thread nD τ) ↦[VS1_1.set]{fullShare} VS1_1.writes (Elt F) f LS1)) -∗ K ⟨⟩))
        ⊢ wp frame (wpE (defs₀ (F := F)) Variants.none c none) Set.univ (bodyAt1 t) K) :
    bodyPre1 V c t ⊢ wp frame (wpE (defs₀ (F := F)) Variants.none c none) Set.univ (bodyAt1 t) (fun _ => bodyPost1 V c t) := by
  unfold bodyPre1 bodyPost1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ, ho]
  rw [leaves_live1 V c 0 t (liveAt1_0 t), after1_0, leaves_live1 V c 1 t (liveAt1_1 t), after1_1, leaves_live1 V c 2 t (liveAt1_2 t), after1_2]
  iintro ⟨HΦ, Ho, ⟨%d0, H0⟩, ⟨%d1, H1⟩, ⟨%d2, H2⟩, H3⟩
  ihave HΦ' := hΦ $$ HΦ
  icases HΦ' with ⟨⟨HS0, HS1⟩, Hr⟩
  ihave H3' := hin $$ H3
  icases H3' with ⟨%x, H3⟩
  iapply (hrun x _)
  iframe H0 H1 H2 H3 HS0 HS1
  iintro ⟨H0, H1, H2, H3, HS0, HS1⟩
  ihave HS0 := (owns_of_cover1 c scM1_0 VS1_0 VS1_0.junk hS0) $$ HS0
  ihave HS1 := (owns_of_cover1 c scM1_1 VS1_1 VS1_1.junk hS1) $$ HS1
  ihave H3 := (hout x) $$ H3
  iframe

-- Off the last key block the post for window 3 is its buffer at what it held.
theorem win1_3_idle (c : Dev nD) (t : Fin cfg1.N) (h4 : ¬t.val % 4 = 3) (d) :
    owns (c : Thread nD τ) (ms1_3 t) fullShare ((dat1 V c).before 3 t d) ⊢ (dat1 V c).leavesExact 3 t := by
  rw [Dat.leavesExact_idle (dat1 V c) 3 t (idleAt1_3 t (mt (hcond1_4 t).1 h4)) (noFlush1_3 t (mt (hcond1_4 t).1 h4))]
  iintro H; iexists d; iexact H

-- At the last key block the run takes window 3's buffer at any contents.
theorem win1_3_any (c : Dev nD) (t : Fin cfg1.N) :
    iprop(∃ d, owns (c : Thread nD τ) (ms1_3 t) fullShare ((dat1 V c).before 3 t d))
      ⊢ (iprop(∃ _ : Unit, ∃ d, owns (c : Thread nD τ) (ms1_3 t) fullShare d) : sProp 𝕄) := by
  iintro ⟨%d, H⟩; iexists (); iexists _; iexact H

-- At the last key block the run's pieces cover window 3's buffer and read back as the recurrence's first component.
theorem win1_3_live (c : Dev nD) (t : Fin cfg1.N) (h4 : t.val % 4 = 3) {L3 : List (View.Piece (Elt F) S1x512x1024 .f32)} {o1 o2}
    (ho : outsAt1 V c t.val t.isLt = (VO1_3.read (Elt F) (VO1_3.writes (Elt F) VO1_3.junk L3), o1, o2)) (h3 : ∀ y, ∃ p ∈ L3, y ∈ p.1.set) :
    iprop(∃ f, (ms1_3 t).view.loc (c : Thread nD τ) ↦[(ms1_3 t).view.set]{fullShare} (ms1_3 t).view.writes (Elt F) f L3)
      ⊢ (dat1 V c).leavesExact 3 t := by
  rw [leaves_live1 V c 3 t (liveAt1_3 t ((hcond1_4 t).2 h4)), after1_3, ho]
  dsimp only; exact owns_of_cover1 c _ VO1_3 _ h3

end Cert.KernelIdeal.Hand
-- ==== Proof.KI.R1.lean ====
import proofs.«149348_j7679401525936_1_alg».proof.Proof.KI.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound_body1 (c : Dev nD) (t : Fin cfg1.N) :
    bodyPre1 V c t ⊢ wp frame (wpE (defs₀ (F := F)) Variants.none c none) Set.univ (bodyAt1 t) (fun _ => bodyPost1 V c t) := by
  by_cases h1 : t.val % 4 < t.val / 4 % 4
  · by_cases h0 : t.val % 4 = 0
    · exact body1_of_run V c t (outsAt1_B V c t h0 h1 (by omega) (by omega) (by omega)) (fun _ => scover1_B_0 ..) (fun _ => scover1_B_1 ..)
        (by rw [PhiS1_castSucc]; exact PhiS1_open V c _ _) .rfl (win1_3_idle V c t (by omega)) fun _ => (kernelRun1_B ..).2.2.2 _ _
    · exact body1_of_run V c t (outsAt1_C V c t h0 h1 (by omega) (by omega) (by omega)) (fun _ => scover1_C_0 ..) (fun _ => scover1_C_1 ..)
        (by rw [PhiS1_castSucc, PhiS1_pos V c _ _ (by omega)]) .rfl (win1_3_idle V c t (by omega)) fun _ => (kernelRun1_C ..).2.2.2 _ _
  by_cases h2 : t.val % 4 = t.val / 4 % 4
  · by_cases h0 : t.val % 4 = 0
    · exact body1_of_run V c t (outsAt1_A V c t h0 h1 h2 (by omega) (by omega)) (fun _ => scover1_A_0 ..) (fun _ => scover1_A_1 ..)
        (by rw [PhiS1_castSucc]; exact PhiS1_open V c _ _) .rfl (win1_3_idle V c t (by omega)) fun _ => (kernelRun1_A ..).2.2.2 _ _
    by_cases h4 : t.val % 4 = 3
    · exact body1_of_run V c t (outsAt1_F V c t h0 h1 h2 (by omega) h4) (fun _ => scover1_F_0 ..) (fun _ => scover1_F_1 ..)
        (by rw [PhiS1_castSucc, PhiS1_pos V c _ _ (by omega)]) (win1_3_any V c t)
        (fun _ => win1_3_live V c t h4 (outsAt1_F V c t h0 h1 h2 (by omega) h4) fun _ => cover1_F_3 ..) fun _ => (kernelRun1_F ..).2.2.2 _
    · exact body1_of_run V c t (outsAt1_D V c t h0 h1 h2 (by omega) h4) (fun _ => scover1_D_0 ..) (fun _ => scover1_D_1 ..)
        (by rw [PhiS1_castSucc, PhiS1_pos V c _ _ (by omega)]) .rfl (win1_3_idle V c t h4) fun _ => (kernelRun1_D ..).2.2.2 _ _
  by_cases h4 : t.val % 4 = 3
  · exact body1_of_run V c t (outsAt1_G V c t (by omega) h1 h2 (by omega) h4) (fun _ => scover1_G_0 ..) (fun _ => scover1_G_1 ..)
        (by rw [PhiS1_castSucc, PhiS1_pos V c _ _ (by omega)]) (win1_3_any V c t)
        (fun _ => win1_3_live V c t h4 (outsAt1_G V c t (by omega) h1 h2 (by omega) h4) fun _ => cover1_G_3 ..) fun _ => (kernelRun1_G ..).2.2.2 _
  · exact body1_of_run V c t (outsAt1_E V c t (by omega) h1 h2 (by omega) h4) (fun _ => scover1_E_0 ..) (fun _ => scover1_E_1 ..)
        (by rw [PhiS1_castSucc, PhiS1_pos V c _ _ (by omega)]) .rfl (win1_3_idle V c t h4) fun _ => (kernelRun1_E ..).2.2.2 _ _

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl]
  exact Idealize.SL.BI.Entails.trans (PhiS1_open V c _ _) (PhiA1_close c)

end Cert.KernelIdeal.Hand

end
-- ==== Proof.KI.R2.lean ====
import proofs.«149348_j7679401525936_1_alg».proof.Proof.Gen.KernelIdeal.Launch
import proofs.«149348_j7679401525936_1_alg».proof.Proof.Gen.KernelIdeal.Skeleton
import proofs.«149348_j7679401525936_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S256x1024 := Rect.unit (s := S256x1024) ![0, 0] S256x1024.size inb_S256x1024_S256x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

def out2_3 (x0 : Vec F S256x1024 .f32) (x1 : Vec F S1024x1024 .bf16) (x2 : Vec F S1x1024 .f32) : Vec F S256x1024 .f32 :=
  View.canon [⟨r2_0, k2_pay1 (View.ld x0 r2_0) (View.ld x1 r2_1) (View.ld x2 r2_2)⟩]

theorem cover2_3 (p0 : Vec F S256x1024 .f32) (y : S256x1024.Idx) :
    ∃ pc ∈ ([⟨r2_0, p0⟩] : List (View.Piece (Elt F) S256x1024 .f32)), y ∈ pc.1.set :=
  View.cover_of_tiled [⟨r2_0, p0⟩] S256x1024.size (by rfl) y

set_option maxHeartbeats 1000000 in
theorem sound_kernel2 (c : Dev nD) (E : Set ℕ) (i : grid2.Coords) (arg1 : Memref sig .tc .vmem S256x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S256x1024 .f32) (harg4 : arg4.IsWhole)
    (x0 : Vec F S256x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__outproj_kernel i arg1 harg1 arg2 harg2 arg3 harg3 arg4 harg4) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«149348_j7679401525936_1_alg».proof.Proof.KI.R0
import proofs.«149348_j7679401525936_1_alg».proof.Proof.KI.R1
import proofs.«149348_j7679401525936_1_alg».proof.Proof.KI.R2
import proofs.«149348_j7679401525936_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (⟨m, fun _ => 0, ρ⟩ : MemSt nD τ sig (Elt F)).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev W7 : Dev nD → Valuation τ sig (Elt F) := fun c => StableHlo.after hostOps3 (W6 m ρ c)

abbrev argRefs : List (Ref sig .tc) := [main_arg0, main_arg1, main_arg2, main_arg3, main_arg4, main_arg5]

/-- No host stretch writes an argument, no region has one among its arrays, and none is scoped. -/
theorem arg_untouched : ∀ b ∈ argRefs, b ∉ hostOps0_W ∧ (∀ w, Pipeline.arrRef spec0 w ≠ b) ∧ b ∉ hostOps1_W
    ∧ (∀ w, Pipeline.arrRef spec1 w ≠ b) ∧ b ∉ hostOps2_W ∧ (∀ w, Pipeline.arrRef spec2 w ≠ b) ∧ b ∉ hostOps3_W
    ∧ ¬ (Proc.devRef .tc b : DevRef τ sig).isScoped := by decide

theorem W4_arg (c : Dev nD) {b : Ref sig .tc} (hb : b ∈ argRefs) :
    W4 m ρ c (Proc.devRef .tc b) = m ((c : Thread nD τ).loc b) := by
  obtain ⟨h0, a0, h1, a1, -⟩ := arg_untouched b hb
  exact (W4_of_ne m ρ c b a1).trans <| (StableHlo.after_of_writes_sub hostOps1 _ hostOps1_writes h1).trans <|
    (W2_of_ne m ρ c b a0).trans <| StableHlo.after_of_writes_sub hostOps0 _ hostOps0_writes h0

theorem W7_arg (c : Dev nD) {b : Ref sig .tc} (hb : b ∈ argRefs) :
    W7 m ρ c (Proc.devRef .tc b) = m ((c : Thread nD τ).loc b) := by
  obtain ⟨-, -, -, -, h2, a2, h3, -⟩ := arg_untouched b hb
  exact (StableHlo.after_of_writes_sub hostOps3 _ hostOps3_writes h3).trans <| (W6_of_ne m ρ c b a2).trans <|
    (StableHlo.after_of_writes_sub hostOps2 _ hostOps2_writes h2).trans <| W4_arg m ρ c hb

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

set_option backward.isDefEq.respectTransparency.types false in
/-- A region as a segment from every unscoped buffer at `Win` to every one at `Wout`: its arrays are split out at entry and put back at exit. -/
def reg (p : Fin 3) (la : Pipeline.LaunchFacts (nD := nD) (τ := τ) cfgs p) (Win Wout : Dev nD → Valuation τ sig (Elt F))
    (hbody : ∀ c, BodyObligation (pdats m ρ p c) (defs₀ (F := F)) Variants.none () Set.univ)
    (hq : ∀ c w, (pdats m ρ p c).q w = fullShare) (howed : ∀ c, (pdats m ρ p c).owed = fun _ => 0)
    (hrec : ∀ c, (pdats m ρ p c).recorded = fun _ => Set.univ)
    (hA : ∀ c w, (pdats m ρ p c).A w = Win c (Proc.devRef .tc (Pipeline.arrRef (cfgs p).spec w)))
    (hF : ∀ c w, Wout c (Proc.devRef .tc (Pipeline.arrRef (cfgs p).spec w)) = (pdats m ρ p c).arrAt w (cfgs p).N)
    (hne : ∀ c (b : Ref sig .tc), (∀ w, Pipeline.arrRef (cfgs p).spec w ≠ b) → Wout c (Proc.devRef .tc b) = Win c (Proc.devRef .tc b))
    (hΦi : ∀ c, (Pipeline.ΦA (cfgs p).spec c : sProp 𝕄) ⊢ (pdats m ρ p c).Φ 0)
    (hΦo : ∀ c, (pdats m ρ p c).Φ (Fin.last _) ⊢ (Pipeline.ΦA (cfgs p).spec c : sProp 𝕄)) :
    Pipeline.RegionSeg (pcfgs (F := F)) adm (pdats m ρ) () defs₀ 𝒱₀ L lv p where
  win := la.win.to₀
  block_pos := la.block_pos
  stage_whole := la.stage_whole
  K := PEmpty
  osem k := k.elim
  ho := Pipeline.OwnSemFacts.none _
  hbody c := (hbody c).loose
  hwaits := Pipeline.hwaits_of_owed_zero _ _ _ _ L lv p fun c t => congrFun (howed c) t
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m ρ) la.win la.arr_whole c
      ((pdats m ρ p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      simp only [howed c]
      icases HO with ⟨%W, HO⟩; iexists W; isplitr; · ipureintro; exact fun _ _ => Or.inl (by rw [hrec c]; exact Set.mem_univ _)
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    rw [Pipeline.ownSems0_none]
    refine BIBase.Entails.trans (hΦo c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m ρ) ((pdats m ρ p c).share_full (hq c))
      (fun b => Win c b) (fun b => Wout c b) ((pdats m ρ p c).arrAt · (cfgs p).N) (fun w => (hF c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    simp only [howed c]
    icases HO with ⟨%W, -, HO⟩; iexists W; iexact HO

abbrev reg0 := reg m ρ 0 launch0 (W1 m ρ) (W2 m ρ) (body_obligation0 (V1 m ρ)) (fun _ _ => rfl) (fun _ => rfl) (fun _ => rfl) (fun _ _ => rfl)
  (W2_arr m ρ) (W2_of_ne m ρ) (fun _ => .rfl) (fun _ => .rfl)
abbrev reg1 := reg m ρ 1 launch1 (W3 m ρ) (W4 m ρ) (body_obligation1 (V3 m ρ)) (fun _ _ => rfl) (fun _ => rfl) (fun _ => rfl) (fun _ _ => rfl)
  (W4_arr m ρ) (W4_of_ne m ρ) (hin1 (V3 m ρ)) (hout1 (V3 m ρ))
abbrev reg2 := reg m ρ 2 launch2 (W5 m ρ) (W6 m ρ) (body_obligation2 (V5 m ρ)) (fun _ _ => rfl) (fun _ => rfl) (fun _ => rfl) (fun _ _ => rfl)
  (W6_arr m ρ) (W6_of_ne m ρ) (fun _ => .rfl) (fun _ => .rfl)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) :=
  main_segs adm (pdats m ρ) () 𝒱₀ L lv _ _ _ _ (reg0 m ρ) (reg1 m ρ) (reg2 m ρ) rfl rfl rfl rfl c

theorem last_post (c : Dev nD) :
    (iprop(StableHlo.held (c : Thread nD τ) (Pipeline.ucRefs τ sig) (W7 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => last_post m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-- An argument's buffer in a final state whose unscoped buffers hold the last contents is the launch memory's. -/
theorem arg_kept (c : Dev nD) {s : MemSt nD τ sig (Elt F)} (h : ∀ b ∈ Pipeline.ucRefs τ sig, s.mem (((c : Thread nD τ)).1, b) = W7 m ρ c b)
    {b : Ref sig .tc} (hb : b ∈ argRefs) : s.mem ((c.tc : Thread nD τ).loc b) = m ((c.tc : Thread nD τ).loc b) :=
  (h _ (mem_uc b (arg_untouched b hb).2.2.2.2.2.2.2)).trans (W7_arg m ρ c hb)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨arg_kept m ρ c (h c) (by decide), arg_kept m ρ c (h c) (by decide), arg_kept m ρ c (h c) (by decide),
     arg_kept m ρ c (h c) (by decide), arg_kept m ρ c (h c) (by decide), arg_kept m ρ c (h c) (by decide)⟩) (run_all m ρ)

end Cert.KernelIdeal.Hand

end
-- ==== Proof.Spec.lean ====
import Idealize.ShloMosaic.Lib.ValueIdx
import Mathlib.Data.Real.Basic
import Mathlib.Data.EReal.Basic
import Mathlib.Algebra.BigOperators.Fin

noncomputable section

namespace Cert.Spec

open Idealize.ShloMosaic Idealize.ShloMosaic.ValueIdx

def tenth : ℝ := 13421773 / 134217728
def eps : ℝ := 2748779 / 274877906944

def up1 {A : Nat} (a : Fin A → ℝ) : (⟨1, ![A]⟩ : Shape).Idx → EReal := fun j => ((a (j 0) : ℝ) : EReal)
def up2 {A B : Nat} (a : Fin A → Fin B → ℝ) : (⟨2, ![A, B]⟩ : Shape).Idx → EReal := fun j => ((a (j 0) (j 1) : ℝ) : EReal)
def up3 {A B C : Nat} (a : Fin A → Fin B → Fin C → ℝ) : (⟨3, ![A, B, C]⟩ : Shape).Idx → EReal :=
  fun j => ((a (j 0) (j 1) (j 2) : ℝ) : EReal)

theorem up1_apply {A : Nat} (a : Fin A → ℝ) (p : Fin A) : up1 a (ix1 p) = ((a p : ℝ) : EReal) := rfl
theorem up2_apply {A B : Nat} (a : Fin A → Fin B → ℝ) (p : Fin A) (q : Fin B) : up2 a (ix2 p q) = ((a p q : ℝ) : EReal) := rfl
theorem up3_apply {A B C : Nat} (a : Fin A → Fin B → Fin C → ℝ) (p : Fin A) (q : Fin B) (r : Fin C) :
    up3 a (ix3 p q r) = ((a p q r : ℝ) : EReal) := rfl

section

variable (x : Fin 8 → Fin 2048 → Fin 1024 → ℝ) (W : Fin 1024 → Fin 1024 → ℝ)

def proj (b : Fin 8) (t : Fin 2048) (d : Fin 1024) : ℝ := ∑ c : Fin 1024, x b t c * W d c
def projScaledW (b : Fin 8) (t : Fin 2048) (d : Fin 1024) : ℝ := ∑ c : Fin 1024, x b t c * (W d c * tenth)
def projThenScale (b : Fin 8) (t : Fin 2048) (d : Fin 1024) : ℝ := (∑ c : Fin 1024, x b t c * W d c) * tenth

end

section

variable (q k v : Fin 8 → Fin 2048 → Fin 1024 → ℝ)

def score (b : Fin 8) (i j : Fin 2048) : ℝ := ∑ d : Fin 1024, q b i d * k b j d
def masked (b : Fin 8) (i j : Fin 2048) : ℝ := if j ≤ i then score q k b i j else -1
def rowSum (b : Fin 8) (i : Fin 2048) : ℝ := ∑ j : Fin 2048, masked q k b i j
def denom (b : Fin 8) (i : Fin 2048) : ℝ := rowSum q k b i + eps
def weighted (b : Fin 8) (i : Fin 2048) (d : Fin 1024) : ℝ := ∑ j : Fin 2048, masked q k b i j * v b j d
def attendK (b : Fin 8) (i : Fin 2048) (d : Fin 1024) : ℝ := weighted q k v b i d / denom q k b i
def attendR (b : Fin 8) (i : Fin 2048) (d : Fin 1024) : ℝ := ∑ j : Fin 2048, (masked q k b i j / denom q k b i) * v b j d

end

def outProj (Wo : Fin 1024 → Fin 1024 → ℝ) (bo : Fin 1024 → ℝ) (y : Fin 8 → Fin 2048 → Fin 1024 → ℝ)
    (b : Fin 8) (i : Fin 2048) (e : Fin 1024) : ℝ := (∑ d : Fin 1024, y b i d * Wo e d) + bo e

section

variable (x : Fin 8 → Fin 2048 → Fin 1024 → ℝ) (Wq Wk Wv Wo : Fin 1024 → Fin 1024 → ℝ) (bo : Fin 1024 → ℝ)

def kernelOut : Fin 8 → Fin 2048 → Fin 1024 → ℝ :=
  outProj Wo bo (attendK (projScaledW x Wq) (projScaledW x Wk) (proj x Wv))
def referenceOut : Fin 8 → Fin 2048 → Fin 1024 → ℝ :=
  outProj Wo bo (attendR (projThenScale x Wq) (projThenScale x Wk) (proj x Wv))

end

end Cert.Spec

end
-- ==== Proof.Consts.lean ====
import Idealize.ShloMosaic.PureOps.Ideal
import Idealize.ShloMosaic.PureOps.Ideal.Laws
import proofs.«149348_j7679401525936_1_alg».proof.Proof.Spec

noncomputable section

namespace Cert.Consts

open Idealize.ShloMosaic

theorem ofBits_tenth : Ideal.ofBits .f32 0x3DCCCCCD#32 = ((Cert.Spec.tenth : ℝ) : EReal) := by
  unfold Cert.Spec.tenth
  simp [Ideal.ofBits, Ideal.ieee, -EReal.coe_mul]; norm_num

theorem ofBits_eps : Ideal.ofBits .f32 0x3727C5AC#32 = ((Cert.Spec.eps : ℝ) : EReal) := by
  unfold Cert.Spec.eps
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem ofBits_neg_512 : Ideal.ofBits .f32 0xC4000000#32 = ((-512 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee]

end Cert.Consts

end
-- ==== Proof.Val.Alg.lean ====
import proofs.«149348_j7679401525936_1_alg».proof.Proof.Spec
import Mathlib.Algebra.BigOperators.Field
import Mathlib.Algebra.BigOperators.Ring.Finset
import Mathlib.Algebra.BigOperators.Fin
import Mathlib.Logic.Equiv.Fin.Basic
import Mathlib.Tactic.Ring
import Mathlib.Tactic.FieldSimp

noncomputable section

namespace Cert.KernelIdeal.Val

open Cert.Spec

theorem projScaledW_eq (x : Fin 8 → Fin 2048 → Fin 1024 → ℝ) (W : Fin 1024 → Fin 1024 → ℝ) :
    projScaledW x W = projThenScale x W := by
  funext b t d
  unfold projScaledW projThenScale
  rw [Finset.sum_mul]
  refine Finset.sum_congr rfl fun c _ => ?_
  rw [mul_assoc]

theorem attendK_eq_attendR (q k v : Fin 8 → Fin 2048 → Fin 1024 → ℝ) : attendK q k v = attendR q k v := by
  funext b i d
  unfold attendK attendR weighted
  rw [Finset.sum_div]
  refine Finset.sum_congr rfl fun j _ => ?_
  rw [div_mul_eq_mul_div]

theorem denom_scaledW (x : Fin 8 → Fin 2048 → Fin 1024 → ℝ) (Wq Wk : Fin 1024 → Fin 1024 → ℝ) :
    denom (projScaledW x Wq) (projScaledW x Wk) = denom (projThenScale x Wq) (projThenScale x Wk) := by
  rw [projScaledW_eq, projScaledW_eq]

theorem kernelOut_eq_referenceOut (x : Fin 8 → Fin 2048 → Fin 1024 → ℝ) (Wq Wk Wv Wo : Fin 1024 → Fin 1024 → ℝ)
    (bo : Fin 1024 → ℝ) : kernelOut x Wq Wk Wv Wo bo = referenceOut x Wq Wk Wv Wo bo := by
  unfold kernelOut referenceOut
  rw [projScaledW_eq, projScaledW_eq, attendK_eq_attendR]

theorem sum_tiles (f : Fin 2048 → ℝ) :
    ∑ j : Fin 2048, f j = ∑ tl : Fin 4, ∑ jj : Fin 512, f ⟨tl.val * 512 + jj.val, by omega⟩ := by
  have h := (Equiv.sum_comp (finProdFinEquiv (m := 4) (n := 512)) f).symm
  rw [show (∑ j : Fin 2048, f j) = ∑ j : Fin (4 * 512), f j from rfl, h, Fintype.sum_prod_type]
  refine Finset.sum_congr rfl fun tl _ => Finset.sum_congr rfl fun jj _ => ?_
  congr 1
  apply Fin.ext
  simp only [finProdFinEquiv_apply_val]
  omega

end Cert.KernelIdeal.Val

end
-- ==== Proof.Val.Pay1.lean ====
import proofs.«149348_j7679401525936_1_alg».proof.Proof.Gen.KernelIdeal.Skeleton
import proofs.«149348_j7679401525936_1_alg».proof.Proof.Consts
import Idealize.ShloMosaic.Lib.ValueLayout
import Idealize.ShloMosaic.Lib.WordArith
import Idealize.ShloMosaic.Lib.Affine

noncomputable section

namespace Cert.KernelIdeal.Val

open Cert.KernelIdeal Cert.KernelIdeal.Gen Cert.Spec Idealize.ShloMosaic Idealize.ShloMosaic.ValueIdx

theorem coe_finsum {ι : Type} (s : Finset ι) (f : ι → ℝ) : ((∑ i ∈ s, f i : ℝ) : EReal) = ∑ i ∈ s, ((f i : ℝ) : EReal) :=
  map_sum (⟨⟨(↑), EReal.coe_zero⟩, EReal.coe_add⟩ : ℝ →+ EReal) f s

-- The one contraction coordinate is the column of the left factor and the row of the right one.
theorem matmul_plain_apply (M K N : ℕ) {φ ψ : FTy} (A : FVec Ideal ⟨2, ![M, K]⟩ φ) (B : FVec Ideal ⟨2, ![K, N]⟩ ψ)
    (r : Fin M) (j : Fin N) :
    matmul (DotDims.plain M K N) none A B (constant _ .f32 0x00000000#32) (ix2 r j) = ∑ d : Fin K, A (ix2 r d) * B (ix2 d j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  exact congrArg₂ (· * ·) (congrArg A (Shape.idx_ext₂ rfl hk)) (congrArg B (Shape.idx_ext₂ hk rfl))

theorem pay1_apply (r : Fin 512) : k1_pay1 (F := Ideal) (ix2 r (0 : Fin 1)) = ((0 : ℝ) : EReal) := by
  unfold k1_pay1
  rw [shapeCast_self]
  exact Cert.Consts.ofBits_zero

theorem pay2_apply (r : Fin 512) (d : Fin 1024) : k1_pay2 (F := Ideal) (ix2 r d) = ((0 : ℝ) : EReal) := by
  unfold k1_pay2
  rw [shapeCast_self]
  exact Cert.Consts.ofBits_zero

def tileScore (qb kb : Fin 1 → Fin 512 → Fin 1024 → ℝ) (r j : Fin 512) : ℝ := ∑ d : Fin 1024, qb 0 r d * kb 0 j d

theorem pay6_apply (qb kb : Fin 1 → Fin 512 → Fin 1024 → ℝ) (r j : Fin 512) :
    k1_pay6 (F := Ideal) (up3 qb) (up3 kb) (ix2 r j) = ((tileScore qb kb r j : ℝ) : EReal) := by
  unfold tileScore
  rw [coe_finsum]
  refine (matmul_plain_apply 512 1024 512 _ _ r j).trans (Finset.sum_congr rfl fun d _ => ?_)
  rw [EReal.coe_mul]
  exact congrArg₂ (· * ·) (shapeCast_1ab_ab_apply (up3 qb) _ r d)
    ((transpose_ix2_apply _ _ d j).trans (shapeCast_1ab_ab_apply (up3 kb) _ j d))

-- Tile offsets plus in-tile indices stay far below 2³¹, so the signed comparison is the naturals'.
theorem select_sge_tile {α : Type} (s t x y : ℕ) (hs : s < 4) (ht : t < 4) (hx : x < 512) (hy : y < 512) (A B : α) :
    Scalar.select (IntOp.cmpi .sge (IntOp.addi (Scalar.muli (BitVec.ofNat 32 s) 512#32) (BitVec.ofNat 32 x))
      (IntOp.addi (Scalar.muli (BitVec.ofNat 32 t) 512#32) (BitVec.ofNat 32 y))) A B
      = if t * 512 + y ≤ s * 512 + x then A else B := by
  have e : ∀ a b : ℕ, IntOp.addi (Scalar.muli (BitVec.ofNat 32 a) 512#32) (BitVec.ofNat 32 b) = BitVec.ofNat 32 (a * 512 + b) :=
    fun a b => by
      show BitVec.ofNat 32 a * BitVec.ofNat 32 512 + BitVec.ofNat 32 b = _
      rw [← BitVec.ofNat_mul, ← BitVec.ofNat_add]
  rw [e, e]
  refine if_congr (IntOp.cmpi_sge.trans ?_) rfl rfl
  rw [WordArith.toInt_ofNat_small _ (by omega), WordArith.toInt_ofNat_small _ (by omega)]
  exact Nat.cast_le

def diagScore (qb kb : Fin 1 → Fin 512 → Fin 1024 → ℝ) (r j : Fin 512) : ℝ := if j ≤ r then tileScore qb kb r j else -1

theorem pay9_apply (i : grid1.Coords) (hi : (i 1).val = (i 2).val) (qb kb : Fin 1 → Fin 512 → Fin 1024 → ℝ) (r j : Fin 512) :
    k1_pay9 (F := Ideal) i (up3 qb) (up3 kb) (ix2 r j) = ((diagScore qb kb r j : ℝ) : EReal) := by
  unfold k1_pay9 diagScore
  show Scalar.select (IntOp.cmpi .sge (IntOp.addi _ (iota .tc S512x512 32 [0] _ _)) (IntOp.addi _ (iota .tc S512x512 32 [1] _ _)))
    (k1_pay6 (F := Ideal) (up3 qb) (up3 kb) (ix2 r j)) _ = _
  rw [iota_single_apply, iota_single_apply, pay6_apply, apply_ite ((↑) : ℝ → EReal)]
  refine (select_sge_tile _ _ _ _ (i 1).isLt (i 2).isLt r.isLt j.isLt _ _).trans
    (if_congr (by rw [hi, Fin.le_def]; exact Nat.add_le_add_iff_left) rfl Cert.Consts.ofBits_neg_one)

-- A running row sum: the carried column plus the row sums of a tile whose entries are known.
theorem rowAcc_apply (src : FVec Ideal S512x512 .f32) (s : Fin 512 → Fin 512 → ℝ)
    (hs : ∀ r j, src (ix2 r j) = ((s r j : ℝ) : EReal)) (l : Fin 512 → Fin 1 → ℝ) (r : Fin 512) :
    shapeCast S512x1 (addf (up2 l) (shapeCast S512x1
      (multiReduction .add [1] S512 src 0x00000000#32 reduces_S512x512_S512 (.inl rfl) rfl) shapeCasts_S512_S512x1))
      shapeCasts_S512x1_S512x1 (ix2 r (0 : Fin 1)) = ((l r 0 + ∑ j : Fin 512, s r j : ℝ) : EReal) := by
  rw [shapeCast_self, EReal.coe_add, coe_finsum]
  refine (addf_apply _ _ _).trans (congrArg (_ + ·) ((shapeCast_apply _ _ _ (ix1 r) ?_).trans
    ((Ideal.multiReduction_add_single _ _ _ _ _ _).trans
      (Finset.sum_congr rfl fun j _ => (congrArg src (eq_ix2 _)).trans (hs r j)))))
  rw [Shape.rowMajor_val_two, Shape.rowMajor_val_one]
  exact (Nat.mul_one _).symm

-- A running weighted sum: the carried tile plus the product of a known tile with the value block.
theorem pvAcc_apply (src : FVec Ideal S512x512 .f32) (s : Fin 512 → Fin 512 → ℝ)
    (hs : ∀ r j, src (ix2 r j) = ((s r j : ℝ) : EReal)) (vb : Fin 1 → Fin 512 → Fin 1024 → ℝ)
    (acc : Fin 512 → Fin 1024 → ℝ) (r : Fin 512) (d : Fin 1024) :
    shapeCast S512x1024 (addf (up2 acc) (matmul dot_S512x512_S512x1024_S512x1024_1_0_0_1_n_n none
      (truncf .bf16 src bitsLt_bf16_f32) (k1_pay5 (F := Ideal) (up3 vb)) (constant S512x1024 .f32 0x00000000#32)))
      shapeCasts_S512x1024_S512x1024 (ix2 r d) = ((acc r d + ∑ j : Fin 512, s r j * vb 0 j d : ℝ) : EReal) := by
  rw [shapeCast_self, EReal.coe_add, coe_finsum]
  refine (addf_apply _ _ _).trans (congrArg (_ + ·) ((matmul_plain_apply 512 512 1024 _ _ r d).trans
    (Finset.sum_congr rfl fun j _ => ?_)))
  rw [EReal.coe_mul]
  exact congrArg₂ (· * ·) (hs r j) (shapeCast_1ab_ab_apply (up3 vb) _ j d)

theorem pay7_apply (qb kb : Fin 1 → Fin 512 → Fin 1024 → ℝ) (l : Fin 512 → Fin 1 → ℝ) (r : Fin 512) :
    k1_pay7 (F := Ideal) (up3 qb) (up3 kb) (up2 l) (ix2 r (0 : Fin 1))
      = ((l r 0 + ∑ j : Fin 512, tileScore qb kb r j : ℝ) : EReal) :=
  rowAcc_apply _ _ (pay6_apply qb kb) l r

theorem pay8_apply (qb kb vb : Fin 1 → Fin 512 → Fin 1024 → ℝ) (acc : Fin 512 → Fin 1024 → ℝ) (r : Fin 512) (d : Fin 1024) :
    k1_pay8 (F := Ideal) (up3 qb) (up3 kb) (up3 vb) (up2 acc) (ix2 r d)
      = ((acc r d + ∑ j : Fin 512, tileScore qb kb r j * vb 0 j d : ℝ) : EReal) :=
  pvAcc_apply _ _ (pay6_apply qb kb) vb acc r d

theorem pay10_apply (i : grid1.Coords) (hi : (i 1).val = (i 2).val) (qb kb : Fin 1 → Fin 512 → Fin 1024 → ℝ)
    (l : Fin 512 → Fin 1 → ℝ) (r : Fin 512) :
    k1_pay10 (F := Ideal) i (up3 qb) (up3 kb) (up2 l) (ix2 r (0 : Fin 1))
      = ((l r 0 + ∑ j : Fin 512, diagScore qb kb r j : ℝ) : EReal) :=
  rowAcc_apply _ _ (pay9_apply i hi qb kb) l r

theorem pay11_apply (i : grid1.Coords) (hi : (i 1).val = (i 2).val) (qb kb vb : Fin 1 → Fin 512 → Fin 1024 → ℝ)
    (acc : Fin 512 → Fin 1024 → ℝ) (r : Fin 512) (d : Fin 1024) :
    k1_pay11 (F := Ideal) i (up3 qb) (up3 kb) (up3 vb) (up2 acc) (ix2 r d)
      = ((acc r d + ∑ j : Fin 512, diagScore qb kb r j * vb 0 j d : ℝ) : EReal) :=
  pvAcc_apply _ _ (pay9_apply i hi qb kb) vb acc r d

theorem pay12_apply (l : Fin 512 → Fin 1 → ℝ) (r : Fin 512) :
    k1_pay12 (F := Ideal) (up2 l) (ix2 r (0 : Fin 1)) = ((l r 0 + (-512) : ℝ) : EReal) := by
  unfold k1_pay12
  rw [shapeCast_self]
  refine (addf_apply _ _ _).trans ?_
  rw [EReal.coe_add, up2_apply]
  exact congrArg (_ + ·) Cert.Consts.ofBits_neg_512

theorem pay13_apply (vb : Fin 1 → Fin 512 → Fin 1024 → ℝ) (acc : Fin 512 → Fin 1024 → ℝ) (r : Fin 512) (d : Fin 1024) :
    k1_pay13 (F := Ideal) (up3 vb) (up2 acc) (ix2 r d) = ((acc r d + (0 - ∑ j : Fin 512, vb 0 j d) : ℝ) : EReal) := by
  unfold k1_pay13
  rw [shapeCast_self, shapeCast_self, EReal.coe_add, EReal.coe_sub, coe_finsum]
  exact (addf_apply _ _ _).trans (congrArg (_ + ·) ((broadcastTo_1b_ab_apply _ _ r d).trans ((subf_apply _ _ _).trans
    (congrArg₂ (· - ·) Cert.Consts.ofBits_zero ((shapeCast_a_1a_apply _ _ (0 : Fin 1) d).trans
      ((Ideal.multiReduction_add_single _ _ _ _ _ _).trans (Finset.sum_congr rfl fun j _ =>
        (congrArg _ (eq_ix2 _)).trans (shapeCast_1ab_ab_apply (up3 vb) _ j d))))))))

theorem pay14_apply (acc : Fin 512 → Fin 1024 → ℝ) (l : Fin 512 → Fin 1 → ℝ) (r : Fin 512) (d : Fin 1024) :
    k1_pay14 (F := Ideal) (up2 acc) (up2 l) (ix3 (0 : Fin 1) r d)
      = Ideal.div ((acc r d : ℝ) : EReal) ((l r 0 + eps : ℝ) : EReal) := by
  unfold k1_pay14
  rw [EReal.coe_add]
  refine (shapeCast_ab_1ab_apply _ _ (0 : Fin 1) r d).trans ((divf_apply _ _ _).trans (congrArg (Ideal.div _ ·)
    ((broadcastTo_apply _ _ _ (ix2 r (0 : Fin 1)) fun ax => ?_).trans ((addf_apply _ _ _).trans
      (congrArg (_ + ·) Cert.Consts.ofBits_eps)))))
  match ax with
  | ⟨0, _⟩ => exact (if_neg (by decide : ¬(512 : ℕ) = 1)).symm
  | ⟨1, _⟩ => rfl

end Cert.KernelIdeal.Val

end
-- ==== Proof.Val.Pay0.lean ====
import proofs.«149348_j7679401525936_1_alg».proof.Proof.Val.Pay1

noncomputable section

namespace Cert.KernelIdeal.Val

open Cert.KernelIdeal Cert.KernelIdeal.Gen Cert.Spec Idealize.ShloMosaic Idealize.ShloMosaic.ValueIdx

theorem pay0_apply (a : Fin 256 → Fin 1024 → ℝ) (w : Fin 1024 → Fin 3072 → ℝ) (p : Fin 256) (n : Fin 3072) :
    k0_pay1 (F := Ideal) (up2 a) (up2 w) (ix2 p n) = ((∑ k : Fin 1024, a p k * w k n : ℝ) : EReal) := by
  unfold k0_pay1
  rw [truncf_apply, shapeCast_self, shapeCast_self, coe_finsum]
  exact (matmul_plain_apply 256 1024 3072 (φ := .bf16) (ψ := .bf16) _ _ p n).trans (Finset.sum_congr rfl fun k _ => (EReal.coe_mul _ _).symm)

end Cert.KernelIdeal.Val

end
-- ==== Proof.Val.Val0.lean ====
import proofs.«149348_j7679401525936_1_alg».proof.Proof.KI.R0
import proofs.«149348_j7679401525936_1_alg».proof.Proof.Val.Pay0
import Idealize.ShloMosaic.Lib.Pipeline.Value
import Idealize.ShloMosaic.Lib.Tactic

noncomputable section

namespace Cert.KernelIdeal.Val

open Cert.KernelIdeal Cert.KernelIdeal.Gen Cert.Spec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem rows0_lt (t : Nat) (ht : t < 64) (p : Fin 256) : 256 * t + p.val < 16384 := by
  have := p.isLt; omega

def rows0 (a : Fin 16384 → Fin 1024 → ℝ) (t : Nat) (ht : t < 64) : Fin 256 → Fin 1024 → ℝ :=
  fun p k => a ⟨256 * t + p.val, rows0_lt t ht p⟩ k

def prod0 (a : Fin 16384 → Fin 1024 → ℝ) (w : Fin 1024 → Fin 3072 → ℝ) : Fin 16384 → Fin 3072 → ℝ :=
  fun r n => ∑ k : Fin 1024, a r k * w k n

theorem lt64_0 (t : Fin cfg0.N) : t.val < 64 := by
  have := t.isLt; have hN : cfg0.N = 64 := N_0; omega

theorem iblk0_0_eq (c : Dev nD) (a : Fin 16384 → Fin 1024 → ℝ) (ha : V c main_v0 = up2 a) (t : Fin cfg0.N) :
    (Hand.iblk0 V c 0 t : Vec Ideal S256x1024 .f32) = up2 (rows0 a t.val (lt64_0 t)) := by
  obtain ⟨e0, e1, -⟩ := idx_facts0 t
  funext x
  obtain ⟨p, k, rfl⟩ : ∃ (p : Fin 256) (k : Fin 1024), x = ix2 p k := ⟨x 0, x 1, eq_ix2 x⟩
  unfold Hand.iblk0
  rw [View.read_apply]
  show (V c main_v0 : S16384x1024.Idx → EReal) (((cfg0.win 0).blk t).view.emb (ix2 p k)) = _
  rw [ha]
  show ((a _ _ : ℝ) : EReal) = ((a _ _ : ℝ) : EReal)
  congr 2 <;> apply Fin.ext
  · show win0_0.index t (0 : Fin 2) * 256 + 1 * p.val = 256 * t.val + p.val
    rw [e0]; omega
  · show win0_0.index t (1 : Fin 2) * 1024 + 1 * k.val = k.val
    rw [e1]; omega

theorem iblk0_1_eq (c : Dev nD) (w : Fin 1024 → Fin 3072 → ℝ) (hw : V c main_v7 = up2 w) (t : Fin cfg0.N) :
    (Hand.iblk0 V c 1 t : Vec Ideal S1024x3072 .bf16) = up2 w := by
  obtain ⟨-, -, e0, e1, -⟩ := idx_facts0 t
  funext x
  obtain ⟨k, n, rfl⟩ : ∃ (k : Fin 1024) (n : Fin 3072), x = ix2 k n := ⟨x 0, x 1, eq_ix2 x⟩
  unfold Hand.iblk0
  rw [View.read_apply]
  show (V c main_v7 : S1024x3072.Idx → EReal) (((cfg0.win 1).blk t).view.emb (ix2 k n)) = _
  rw [hw]
  show ((w _ _ : ℝ) : EReal) = ((w _ _ : ℝ) : EReal)
  congr 2 <;> apply Fin.ext
  · show win0_1.index t (0 : Fin 2) * 1024 + 1 * k.val = k.val
    rw [e0]; omega
  · show win0_1.index t (1 : Fin 2) * 3072 + 1 * n.val = n.val
    rw [e1]; omega

theorem point0 (a : Fin 16384 → Fin 1024 → ℝ) (w : Fin 1024 → Fin 3072 → ℝ) (t : Nat) (ht : t < 64)
    (y : S256x3072.Idx) (i : S16384x3072.Idx) (h0 : (i 0).val = 256 * t + (y 0).val) (h1 : (i 1).val = (y 1).val) :
    k0_pay1 (F := Ideal) (up2 (rows0 a t ht)) (up2 w) y = up2 (prod0 a w) i := by
  obtain ⟨p, n, rfl⟩ : ∃ (p : Fin 256) (n : Fin 3072), y = ix2 p n := ⟨y 0, y 1, eq_ix2 y⟩
  obtain ⟨r, n', rfl⟩ : ∃ (r : Fin 16384) (n' : Fin 3072), i = ix2 r n' := ⟨i 0, i 1, eq_ix2 i⟩
  obtain rfl : n' = n := Fin.ext h1
  obtain rfl : r = ⟨256 * t + p.val, rows0_lt t ht p⟩ := Fin.ext h0
  rw [pay0_apply, up2_apply]
  rfl

theorem flushed0_eq (c : Dev nD) (a : Fin 16384 → Fin 1024 → ℝ) (w : Fin 1024 → Fin 3072 → ℝ)
    (ha : V c main_v0 = up2 a) (hw : V c main_v7 = up2 w) (t : Fin cfg0.N) :
    (Hand.dat0 (F := Ideal) V c).flushed 2 t = ((cfg0.win 2).blk t).view.read (Elt Ideal) (up2 (prod0 a w)) := by
  show (cfg0.win 2).cut (grid0.coords t) ((Hand.dat0 (F := Ideal) V c).after 2 t) = _
  rw [Hand.after0_2]
  unfold Hand.out0_2
  rw [View.canon_unit_zero hz0]
  simp only [View.ld_unit_zero (S := S256x1024) hz0, View.ld_unit_zero (S := S1024x3072) hz0]
  rw [iblk0_0_eq V c a ha t, iblk0_1_eq V c w hw t]
  obtain ⟨-, -, -, -, e0, e1⟩ := idx_facts0 t
  funext j
  refine point0 a w t.val (lt64_0 t) j _ ?_ ?_
  · show win0_2.index t (0 : Fin 2) * 256 + 1 * (j 0).val = 256 * t.val + (j 0).val
    rw [e0]; omega
  · show win0_2.index t (1 : Fin 2) * 3072 + 1 * (j 1).val = (j 1).val
    rw [e1]; omega

theorem mem_blk0 (t : Fin cfg0.N) (i : S16384x3072.Idx) :
    i ∈ ((cfg0.win 2).blk t).view.set ↔ ∀ a : Fin 2, win0_2.index t a * S256x3072.size a ≤ (i a).val ∧ (i a).val < win0_2.index t a * S256x3072.size a + S256x3072.size a := by
  show i ∈ ((View.whole main_v8).slice (win0_2.rect t)).set ↔ _
  rw [View.set_slice_whole, Rect.mem_set_unit]
  exact Iff.rfl

theorem cover0 (i : S16384x3072.Idx) :
    ∃ t : Fin cfg0.N, (cfg0.win 2).flush t = true ∧ i ∈ ((cfg0.win 2).blk t).view.set := by
  have hN : cfg0.N = 64 := N_0
  have hi0 : (i 0).val < 16384 := (i 0).isLt
  have hi1 : (i 1).val < 3072 := (i 1).isLt
  let t : Fin cfg0.N := ⟨(i 0).val / 256, by omega⟩
  obtain ⟨-, -, -, -, e0, e1⟩ := idx_facts0 t
  have ht : t.val = (i 0).val / 256 := rfl
  refine ⟨t, flush0_2 t, ?_⟩
  rw [mem_blk0]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 3072 ≤ (i 1).val ∧ (i 1).val < win0_2.index t (1 : Fin 2) * 3072 + 3072; omega

theorem final0 (c : Dev nD) (a : Fin 16384 → Fin 1024 → ℝ) (w : Fin 1024 → Fin 3072 → ℝ)
    (ha : V c main_v0 = up2 a) (hw : V c main_v7 = up2 w) :
    (Hand.dat0 (F := Ideal) V c).arrAt 2 cfg0.N = up2 (fun r n => ∑ k : Fin 1024, a r k * w k n) :=
  (Hand.dat0 (F := Ideal) V c).arrAt_eq_of_cover 2 (up2 (prod0 a w)) (fun t _ => flushed0_eq V c a w ha hw t) cover0

end Cert.KernelIdeal.Val

end
-- ==== Proof.KI.R1Pieces.lean ====
import proofs.«149348_j7679401525936_1_alg».proof.Proof.KI.R1Outs
import Idealize.ShloMosaic.Lib.Pipeline.Value

namespace Cert.KernelIdeal.Hand

open Cert.KernelIdeal.Gen Idealize.ShloMosaic

section Whole
variable {σ : RefSig} {κ : Kind} {sp : Space} {e : EltTy} {Val : EltTy → Type} {n : Nat} {sz off : Fin n → Nat}

-- An offset that leaves room for the whole extent on every axis is zero.
theorem off_eq_zero (inb : ∀ a, off a + sz a ≤ sz a) : off = fun _ => 0 :=
  funext fun a => by have := inb a; omega

-- A load of a whole buffer whose contents read `X` reads `X`.
theorem readAt_unread_whole {m : Memref σ κ sp ⟨n, sz⟩ e} (h : m.IsWhole) (inb : ∀ a, off a + sz a ≤ sz a)
    (X : Shape.Idx ⟨n, sz⟩ → Val e) : m.view.readAt Val (Rect.unit (s := ⟨n, sz⟩) off sz inb) (h.unread X) = X := by
  rw [View.readAt_eq_ld, h.read_unread, View.ld_unit_zero (S := ⟨n, sz⟩) (off_eq_zero inb)]

-- A buffer whose last store wrote it whole reads as that store's value, whatever was stored before.
theorem read_writes_cons_whole [∀ e, Nonempty (Val e)] (v : View σ κ sp ⟨n, sz⟩ e) (inb : ∀ a, off a + sz a ≤ sz a)
    (w : Shape.Idx ⟨n, sz⟩ → Val e) (L : List (View.Piece Val ⟨n, sz⟩ e)) :
    v.read Val (v.writes Val v.junk (⟨Rect.unit off sz inb, w⟩ :: L)) = w :=
  (v.read_writes_junk_eq_canon _).trans (View.canon_cons_unit_zero (S := ⟨n, sz⟩) (off_eq_zero inb) inb w L)

end Whole

variable {F : FTy → Type} [FloatOps F] (c : Dev nD) (i : grid1.Coords)
  (arg3 : Memref sig .tc .vmem S1x512x1024 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x1024 .f32) (harg6 : arg6.IsWhole)
  (arg7 : Memref sig .tc .vmem S512x1 .f32) (harg7 : arg7.IsWhole)
  (arg8 : Memref sig .tc .vmem S512x1024 .f32) (harg8 : arg8.IsWhole)

section CaseA
variable (hc0 : cond1_0 i) (hc1 : ¬cond1_1 i) (hc2 : cond1_2 i) (hc3 : ¬cond1_3 i) (hc4 : ¬cond1_4 i)
  (x0 x1 x2 : Vec F S1x512x1024 .bf16)

-- In every case the last store to a buffer is whole, so the buffer reads as that store's payload, whose loads read the blocks back.
theorem sout1_A_0_eq : sout1_A_0 c i arg3 harg3 arg4 harg4 arg5 harg5 arg6 harg6 arg7 harg7 arg8 harg8 hc0 hc1 hc2 hc3 hc4 x0 x1 x2 = k1_pay10 i x0 x1 k1_pay1 := by
  unfold sout1_A_0 kernelRun1_A; sl_unfold_words
  simp only [read_writes_cons_whole, readAt_unread_whole, View.readCov_cons_toLoadRect]

theorem sout1_A_1_eq : sout1_A_1 c i arg3 harg3 arg4 harg4 arg5 harg5 arg6 harg6 arg7 harg7 arg8 harg8 hc0 hc1 hc2 hc3 hc4 x0 x1 x2 = k1_pay11 i x0 x1 x2 k1_pay2 := by
  unfold sout1_A_1 kernelRun1_A; sl_unfold_words
  simp only [read_writes_cons_whole, readAt_unread_whole, View.readCov_cons_toLoadRect]

end CaseA

section CaseB
variable (hc0 : cond1_0 i) (hc1 : cond1_1 i) (hc2 : ¬cond1_2 i) (hc3 : ¬cond1_3 i) (hc4 : ¬cond1_4 i)
  (x0 x1 x2 : Vec F S1x512x1024 .bf16)

theorem sout1_B_0_eq : sout1_B_0 c i arg3 harg3 arg4 harg4 arg5 harg5 arg6 harg6 arg7 harg7 arg8 harg8 hc0 hc1 hc2 hc3 hc4 x0 x1 x2 = k1_pay7 x0 x1 k1_pay1 := by
  unfold sout1_B_0 kernelRun1_B; sl_unfold_words
  simp only [read_writes_cons_whole, readAt_unread_whole, View.readCov_cons_toLoadRect]

theorem sout1_B_1_eq : sout1_B_1 c i arg3 harg3 arg4 harg4 arg5 harg5 arg6 harg6 arg7 harg7 arg8 harg8 hc0 hc1 hc2 hc3 hc4 x0 x1 x2 = k1_pay8 x0 x1 x2 k1_pay2 := by
  unfold sout1_B_1 kernelRun1_B; sl_unfold_words
  simp only [read_writes_cons_whole, readAt_unread_whole, View.readCov_cons_toLoadRect]

end CaseB

section CaseC
variable (hc0 : ¬cond1_0 i) (hc1 : cond1_1 i) (hc2 : ¬cond1_2 i) (hc3 : ¬cond1_3 i) (hc4 : ¬cond1_4 i)
  (x0 x1 x2 : Vec F S1x512x1024 .bf16) (xs0 : Vec F S512x1 .f32) (xs1 : Vec F S512x1024 .f32)

theorem sout1_C_0_eq : sout1_C_0 c i arg3 harg3 arg4 harg4 arg5 harg5 arg6 harg6 arg7 harg7 arg8 harg8 hc0 hc1 hc2 hc3 hc4 x0 x1 x2 xs0 xs1 = k1_pay7 x0 x1 xs0 := by
  unfold sout1_C_0 kernelRun1_C; sl_unfold_words
  simp only [read_writes_cons_whole, readAt_unread_whole]

theorem sout1_C_1_eq : sout1_C_1 c i arg3 harg3 arg4 harg4 arg5 harg5 arg6 harg6 arg7 harg7 arg8 harg8 hc0 hc1 hc2 hc3 hc4 x0 x1 x2 xs0 xs1 = k1_pay8 x0 x1 x2 xs1 := by
  unfold sout1_C_1 kernelRun1_C; sl_unfold_words
  simp only [read_writes_cons_whole, readAt_unread_whole]

end CaseC

section CaseD
variable (hc0 : ¬cond1_0 i) (hc1 : ¬cond1_1 i) (hc2 : cond1_2 i) (hc3 : ¬cond1_3 i) (hc4 : ¬cond1_4 i)
  (x0 x1 x2 : Vec F S1x512x1024 .bf16) (xs0 : Vec F S512x1 .f32) (xs1 : Vec F S512x1024 .f32)

theorem sout1_D_0_eq : sout1_D_0 c i arg3 harg3 arg4 harg4 arg5 harg5 arg6 harg6 arg7 harg7 arg8 harg8 hc0 hc1 hc2 hc3 hc4 x0 x1 x2 xs0 xs1 = k1_pay10 i x0 x1 xs0 := by
  unfold sout1_D_0 kernelRun1_D; sl_unfold_words
  simp only [read_writes_cons_whole, readAt_unread_whole]

theorem sout1_D_1_eq : sout1_D_1 c i arg3 harg3 arg4 harg4 arg5 harg5 arg6 harg6 arg7 harg7 arg8 harg8 hc0 hc1 hc2 hc3 hc4 x0 x1 x2 xs0 xs1 = k1_pay11 i x0 x1 x2 xs1 := by
  unfold sout1_D_1 kernelRun1_D; sl_unfold_words
  simp only [read_writes_cons_whole, readAt_unread_whole]

end CaseD

section CaseE
variable (hc0 : ¬cond1_0 i) (hc1 : ¬cond1_1 i) (hc2 : ¬cond1_2 i) (hc3 : cond1_3 i) (hc4 : ¬cond1_4 i)
  (x0 x1 x2 : Vec F S1x512x1024 .bf16) (xs0 : Vec F S512x1 .f32) (xs1 : Vec F S512x1024 .f32)

theorem sout1_E_0_eq : sout1_E_0 c i arg3 harg3 arg4 harg4 arg5 harg5 arg6 harg6 arg7 harg7 arg8 harg8 hc0 hc1 hc2 hc3 hc4 x0 x1 x2 xs0 xs1 = k1_pay12 xs0 := by
  unfold sout1_E_0 kernelRun1_E; sl_unfold_words
  simp only [read_writes_cons_whole, readAt_unread_whole]

theorem sout1_E_1_eq : sout1_E_1 c i arg3 harg3 arg4 harg4 arg5 harg5 arg6 harg6 arg7 harg7 arg8 harg8 hc0 hc1 hc2 hc3 hc4 x0 x1 x2 xs0 xs1 = k1_pay13 x2 xs1 := by
  unfold sout1_E_1 kernelRun1_E; sl_unfold_words
  simp only [read_writes_cons_whole, readAt_unread_whole]

end CaseE

section CaseF
variable (hc0 : ¬cond1_0 i) (hc1 : ¬cond1_1 i) (hc2 : cond1_2 i) (hc3 : ¬cond1_3 i) (hc4 : cond1_4 i)
  (x0 x1 x2 : Vec F S1x512x1024 .bf16) (xs0 : Vec F S512x1 .f32) (xs1 : Vec F S512x1024 .f32)

theorem sout1_F_0_eq : sout1_F_0 c i arg3 harg3 arg4 harg4 arg5 harg5 arg6 harg6 arg7 harg7 arg8 harg8 hc0 hc1 hc2 hc3 hc4 x0 x1 x2 xs0 xs1 = k1_pay10 i x0 x1 xs0 := by
  unfold sout1_F_0 kernelRun1_F; sl_unfold_words
  simp only [read_writes_cons_whole, readAt_unread_whole]

theorem sout1_F_1_eq : sout1_F_1 c i arg3 harg3 arg4 harg4 arg5 harg5 arg6 harg6 arg7 harg7 arg8 harg8 hc0 hc1 hc2 hc3 hc4 x0 x1 x2 xs0 xs1 = k1_pay11 i x0 x1 x2 xs1 := by
  unfold sout1_F_1 kernelRun1_F; sl_unfold_words
  simp only [read_writes_cons_whole, readAt_unread_whole]

theorem out1_F_3_eq : out1_F_3 c i arg3 harg3 arg4 harg4 arg5 harg5 arg6 harg6 arg7 harg7 arg8 harg8 hc0 hc1 hc2 hc3 hc4 x0 x1 x2 xs0 xs1 = k1_pay14 (k1_pay11 i x0 x1 x2 xs1) (k1_pay10 i x0 x1 xs0) := by
  unfold out1_F_3 kernelRun1_F; sl_unfold_words
  simp only [read_writes_cons_whole, readAt_unread_whole, View.readCov_cons_toLoadRect]

end CaseF

section CaseG
variable (hc0 : ¬cond1_0 i) (hc1 : ¬cond1_1 i) (hc2 : ¬cond1_2 i) (hc3 : cond1_3 i) (hc4 : cond1_4 i)
  (x0 x1 x2 : Vec F S1x512x1024 .bf16) (xs0 : Vec F S512x1 .f32) (xs1 : Vec F S512x1024 .f32)

theorem sout1_G_0_eq : sout1_G_0 c i arg3 harg3 arg4 harg4 arg5 harg5 arg6 harg6 arg7 harg7 arg8 harg8 hc0 hc1 hc2 hc3 hc4 x0 x1 x2 xs0 xs1 = k1_pay12 xs0 := by
  unfold sout1_G_0 kernelRun1_G; sl_unfold_words
  simp only [read_writes_cons_whole, readAt_unread_whole]

theorem sout1_G_1_eq : sout1_G_1 c i arg3 harg3 arg4 harg4 arg5 harg5 arg6 harg6 arg7 harg7 arg8 harg8 hc0 hc1 hc2 hc3 hc4 x0 x1 x2 xs0 xs1 = k1_pay13 x2 xs1 := by
  unfold sout1_G_1 kernelRun1_G; sl_unfold_words
  simp only [read_writes_cons_whole, readAt_unread_whole]

theorem out1_G_3_eq : out1_G_3 c i arg3 harg3 arg4 harg4 arg5 harg5 arg6 harg6 arg7 harg7 arg8 harg8 hc0 hc1 hc2 hc3 hc4 x0 x1 x2 xs0 xs1 = k1_pay14 (k1_pay13 x2 xs1) (k1_pay12 xs0) := by
  unfold out1_G_3 kernelRun1_G; sl_unfold_words
  simp only [read_writes_cons_whole, readAt_unread_whole, View.readCov_cons_toLoadRect]

end CaseG

end Cert.KernelIdeal.Hand
-- ==== Proof.Val.Val1Inv.lean ====
import proofs.«149348_j7679401525936_1_alg».proof.Proof.Val.Pay1
import proofs.«149348_j7679401525936_1_alg».proof.Proof.Val.Alg

noncomputable section

namespace Cert.KernelIdeal.Val

open Cert.KernelIdeal Cert.KernelIdeal.Gen Cert.Spec Idealize.ShloMosaic Idealize.ShloMosaic.ValueIdx

def pos (t : Fin 4) (x : Fin 512) : Fin 2048 := ⟨t.val * 512 + x.val, by omega⟩

def blockOf (a : Fin 8 → Fin 2048 → Fin 1024 → ℝ) (b : Fin 8) (t : Fin 4) : Fin 1 → Fin 512 → Fin 1024 → ℝ :=
  fun _ r d => a b (pos t r) d

theorem pos_le_pos {t t' : Fin 4} {x x' : Fin 512} : pos t x ≤ pos t' x' ↔ t.val * 512 + x.val ≤ t'.val * 512 + x'.val := Iff.rfl

section
variable (q k v : Fin 8 → Fin 2048 → Fin 1024 → ℝ) (b : Fin 8)

theorem tileScore_blockOf (qi tl : Fin 4) (r j : Fin 512) :
    tileScore (blockOf q b qi) (blockOf k b tl) r j = score q k b (pos qi r) (pos tl j) := rfl

theorem masked_before {qi tl : Fin 4} (h : tl.val < qi.val) (r j : Fin 512) :
    masked q k b (pos qi r) (pos tl j) = tileScore (blockOf q b qi) (blockOf k b tl) r j := by
  unfold masked
  rw [if_pos (pos_le_pos.mpr (by have := j.isLt; omega))]
  rfl

theorem masked_diag (qi : Fin 4) (r j : Fin 512) :
    masked q k b (pos qi r) (pos qi j) = diagScore (blockOf q b qi) (blockOf k b qi) r j := by
  unfold masked diagScore
  by_cases h : j ≤ r
  · rw [if_pos h, if_pos (pos_le_pos.mpr (by have : j.val ≤ r.val := h; omega))]
    rfl
  · rw [if_neg h, if_neg (fun h' => by have : ¬ j.val ≤ r.val := h; have := pos_le_pos.mp h'; omega)]

theorem masked_after {qi tl : Fin 4} (h : qi.val < tl.val) (r j : Fin 512) :
    masked q k b (pos qi r) (pos tl j) = -1 := by
  unfold masked
  rw [if_neg (fun h' => by have := r.isLt; have := pos_le_pos.mp h'; omega)]

def tileL (qi tl : Fin 4) (r : Fin 512) : ℝ := ∑ jj : Fin 512, masked q k b (pos qi r) (pos tl jj)

def tileA (qi tl : Fin 4) (r : Fin 512) (d : Fin 1024) : ℝ :=
  ∑ jj : Fin 512, masked q k b (pos qi r) (pos tl jj) * v b (pos tl jj) d

theorem tileL_before {qi tl : Fin 4} (h : tl.val < qi.val) (r : Fin 512) :
    tileL q k b qi tl r = ∑ j : Fin 512, tileScore (blockOf q b qi) (blockOf k b tl) r j :=
  Finset.sum_congr rfl fun j _ => masked_before q k b h r j

theorem tileL_diag (qi : Fin 4) (r : Fin 512) :
    tileL q k b qi qi r = ∑ j : Fin 512, diagScore (blockOf q b qi) (blockOf k b qi) r j :=
  Finset.sum_congr rfl fun j _ => masked_diag q k b qi r j

theorem tileL_after {qi tl : Fin 4} (h : qi.val < tl.val) (r : Fin 512) : tileL q k b qi tl r = -512 := by
  unfold tileL
  rw [Finset.sum_congr rfl fun j _ => masked_after q k b h r j]
  simp

theorem tileA_before {qi tl : Fin 4} (h : tl.val < qi.val) (r : Fin 512) (d : Fin 1024) :
    tileA q k v b qi tl r d = ∑ j : Fin 512, tileScore (blockOf q b qi) (blockOf k b tl) r j * blockOf v b tl 0 j d :=
  Finset.sum_congr rfl fun j _ => by rw [masked_before q k b h r j]; rfl

theorem tileA_diag (qi : Fin 4) (r : Fin 512) (d : Fin 1024) :
    tileA q k v b qi qi r d = ∑ j : Fin 512, diagScore (blockOf q b qi) (blockOf k b qi) r j * blockOf v b qi 0 j d :=
  Finset.sum_congr rfl fun j _ => by rw [masked_diag q k b qi r j]; rfl

theorem tileA_after {qi tl : Fin 4} (h : qi.val < tl.val) (r : Fin 512) (d : Fin 1024) :
    tileA q k v b qi tl r d = 0 - ∑ j : Fin 512, blockOf v b tl 0 j d := by
  unfold tileA
  rw [Finset.sum_congr rfl fun j _ => by rw [masked_after q k b h r j], zero_sub, ← Finset.sum_neg_distrib]
  exact Finset.sum_congr rfl fun j _ => by rw [neg_one_mul]; rfl

end

def upTo (f : Fin 4 → ℝ) (ki : Fin 4) : ℝ := ∑ tl : Fin 4, if tl ≤ ki then f tl else 0

theorem upTo_zero (f : Fin 4 → ℝ) : upTo f 0 = f 0 := by
  unfold upTo
  rw [Fin.sum_univ_four]
  simp

theorem upTo_succ (f : Fin 4 → ℝ) (ki' ki : Fin 4) (h : ki'.val + 1 = ki.val) : upTo f ki = upTo f ki' + f ki := by
  unfold upTo
  rw [Fin.sum_univ_four, Fin.sum_univ_four]
  match ki', ki, h with
  | ⟨0, _⟩, ⟨1, _⟩, _ => simp
  | ⟨1, _⟩, ⟨2, _⟩, _ => simp
  | ⟨2, _⟩, ⟨3, _⟩, _ => simp

theorem upTo_last (f : Fin 4 → ℝ) : upTo f 3 = ∑ tl : Fin 4, f tl := by
  unfold upTo
  exact Finset.sum_congr rfl fun tl _ => if_pos (Fin.le_last tl)

section
variable (q k v : Fin 8 → Fin 2048 → Fin 1024 → ℝ) (b : Fin 8)

def partL (qi ki : Fin 4) (r : Fin 512) : ℝ := upTo (fun tl => tileL q k b qi tl r) ki

def partA (qi ki : Fin 4) (r : Fin 512) (d : Fin 1024) : ℝ := upTo (fun tl => tileA q k v b qi tl r d) ki

theorem partL_last (qi : Fin 4) (r : Fin 512) : partL q k b qi 3 r = rowSum q k b (pos qi r) := by
  unfold partL rowSum
  rw [upTo_last, sum_tiles]
  rfl

theorem partA_last (qi : Fin 4) (r : Fin 512) (d : Fin 1024) : partA q k v b qi 3 r d = weighted q k v b (pos qi r) d := by
  unfold partA weighted
  rw [upTo_last, sum_tiles]
  rfl

end

theorem ext_col {f g : S512x1.Idx → EReal} (h : ∀ r : Fin 512, f (ix2 r (0 : Fin 1)) = g (ix2 r (0 : Fin 1))) : f = g := by
  funext y
  obtain ⟨r, u, rfl⟩ : ∃ (r : Fin 512) (u : Fin 1), y = ix2 r u := ⟨y 0, y 1, eq_ix2 y⟩
  obtain rfl : u = 0 := Subsingleton.elim _ _
  exact h r

theorem ext_mat {f g : S512x1024.Idx → EReal} (h : ∀ (r : Fin 512) (d : Fin 1024), f (ix2 r d) = g (ix2 r d)) : f = g := by
  funext y
  obtain ⟨r, d, rfl⟩ : ∃ (r : Fin 512) (d : Fin 1024), y = ix2 r d := ⟨y 0, y 1, eq_ix2 y⟩
  exact h r d

theorem ext_blk {f g : S1x512x1024.Idx → EReal} (h : ∀ (r : Fin 512) (d : Fin 1024), f (ix3 (0 : Fin 1) r d) = g (ix3 (0 : Fin 1) r d)) : f = g := by
  funext y
  obtain ⟨u, r, d, rfl⟩ : ∃ (u : Fin 1) (r : Fin 512) (d : Fin 1024), y = ix3 u r d := ⟨y 0, y 1, y 2, eq_ix3 y⟩
  obtain rfl : u = 0 := Subsingleton.elim _ _
  exact h r d

theorem pay1_eq : k1_pay1 (F := Ideal) = up2 (fun (_ : Fin 512) (_ : Fin 1) => (0 : ℝ)) :=
  ext_col fun r => pay1_apply r

theorem pay2_eq : k1_pay2 (F := Ideal) = up2 (fun (_ : Fin 512) (_ : Fin 1024) => (0 : ℝ)) :=
  ext_mat fun r d => pay2_apply r d

section
variable (q k v : Fin 8 → Fin 2048 → Fin 1024 → ℝ) (b : Fin 8)

def accL (qi ki : Fin 4) : Fin 512 → Fin 1 → ℝ := fun r _ => partL q k b qi ki r

def accA (qi ki : Fin 4) : Fin 512 → Fin 1024 → ℝ := fun r d => partA q k v b qi ki r d

theorem partL_zero (qi : Fin 4) (r : Fin 512) : partL q k b qi 0 r = 0 + tileL q k b qi 0 r := by
  unfold partL; rw [upTo_zero, zero_add]
theorem partA_zero (qi : Fin 4) (r : Fin 512) (d : Fin 1024) : partA q k v b qi 0 r d = 0 + tileA q k v b qi 0 r d := by
  unfold partA; rw [upTo_zero, zero_add]

theorem partL_succ (qi ki' ki : Fin 4) (h : ki'.val + 1 = ki.val) (r : Fin 512) :
    partL q k b qi ki r = partL q k b qi ki' r + tileL q k b qi ki r := by
  unfold partL; exact upTo_succ _ ki' ki h
theorem partA_succ (qi ki' ki : Fin 4) (h : ki'.val + 1 = ki.val) (r : Fin 512) (d : Fin 1024) :
    partA q k v b qi ki r d = partA q k v b qi ki' r d + tileA q k v b qi ki r d := by
  unfold partA; exact upTo_succ _ ki' ki h

end

def batchOf (n : ℕ) : Fin 8 := ⟨n / 16 % 8, Nat.mod_lt _ (by decide)⟩
def qTile (n : ℕ) : Fin 4 := ⟨n / 4 % 4, Nat.mod_lt _ (by decide)⟩
def kTile (n : ℕ) : Fin 4 := ⟨n % 4, Nat.mod_lt _ (by decide)⟩

end Cert.KernelIdeal.Val

end
-- ==== Proof.Val.Val1Blocks.lean ====
import proofs.«149348_j7679401525936_1_alg».proof.Proof.KI.R1Runs
import proofs.«149348_j7679401525936_1_alg».proof.Proof.Val.Val1Inv
import Idealize.ShloMosaic.Lib.Pipeline.Value

noncomputable section

namespace Cert.KernelIdeal.Val

open Cert.KernelIdeal Cert.KernelIdeal.Gen Cert.KernelIdeal.Hand Cert.Spec Idealize.ShloMosaic Idealize.ShloMosaic.ValueIdx
open Idealize.ShloMosaic.TcCoe

theorem idx_facts1 : ∀ t : Fin cfg1.N,
    win1_0.index t (0 : Fin 3) = t.val / 16 % 8 ∧ win1_0.index t (1 : Fin 3) = t.val / 4 % 4 ∧ win1_0.index t (2 : Fin 3) = 0
    ∧ win1_1.index t (0 : Fin 3) = t.val / 16 % 8 ∧ win1_1.index t (1 : Fin 3) = t.val % 4 ∧ win1_1.index t (2 : Fin 3) = 0
    ∧ win1_2.index t (0 : Fin 3) = t.val / 16 % 8 ∧ win1_2.index t (1 : Fin 3) = t.val % 4 ∧ win1_2.index t (2 : Fin 3) = 0 :=
  (by decide +kernel : ∀ t : Fin grid1.N, _)

variable (V : (c : Dev nD) → (b : Ref sig .tc) → Buf (Elt Ideal) ((c : Thread nD τ).loc b))

theorem iblk1_0_eq (c : Dev nD) (q : Fin 8 → Fin 2048 → Fin 1024 → ℝ) (hq : V c main_v10 = up3 q) (t : Fin cfg1.N) :
    (iblk1 V c 0 t : Vec Ideal S1x512x1024 .bf16) = up3 (blockOf q (batchOf t.val) (qTile t.val)) := by
  obtain ⟨e0, e1, e2, -⟩ := idx_facts1 t
  funext y
  unfold iblk1
  rw [View.read_apply]
  show V c main_v10 (((cfg1.win 0).blk t).view.emb y) = _
  rw [hq]
  show up3 q (((cfg1.win 0).blk t).view.emb y) = up3 q (ix3 (batchOf t.val) (pos (qTile t.val) (y 1)) (y 2))
  refine congrArg (up3 q) (funext fun a => Fin.ext ?_)
  match a with
  | ⟨0, _⟩ => show win1_0.index t (0 : Fin 3) * 1 + 1 * (y 0).val = t.val / 16 % 8; have h : (y 0).val < 1 := (y 0).isLt; omega
  | ⟨1, _⟩ => show win1_0.index t (1 : Fin 3) * 512 + 1 * (y 1).val = t.val / 4 % 4 * 512 + (y 1).val; omega
  | ⟨2, _⟩ => show win1_0.index t (2 : Fin 3) * 1024 + 1 * (y 2).val = (y 2).val; omega

theorem iblk1_1_eq (c : Dev nD) (k : Fin 8 → Fin 2048 → Fin 1024 → ℝ) (hk : V c main_v11 = up3 k) (t : Fin cfg1.N) :
    (iblk1 V c 1 t : Vec Ideal S1x512x1024 .bf16) = up3 (blockOf k (batchOf t.val) (kTile t.val)) := by
  obtain ⟨-, -, -, e0, e1, e2, -⟩ := idx_facts1 t
  funext y
  unfold iblk1
  rw [View.read_apply]
  show V c main_v11 (((cfg1.win 1).blk t).view.emb y) = _
  rw [hk]
  show up3 k (((cfg1.win 1).blk t).view.emb y) = up3 k (ix3 (batchOf t.val) (pos (kTile t.val) (y 1)) (y 2))
  refine congrArg (up3 k) (funext fun a => Fin.ext ?_)
  match a with
  | ⟨0, _⟩ => show win1_1.index t (0 : Fin 3) * 1 + 1 * (y 0).val = t.val / 16 % 8; have h : (y 0).val < 1 := (y 0).isLt; omega
  | ⟨1, _⟩ => show win1_1.index t (1 : Fin 3) * 512 + 1 * (y 1).val = t.val % 4 * 512 + (y 1).val; omega
  | ⟨2, _⟩ => show win1_1.index t (2 : Fin 3) * 1024 + 1 * (y 2).val = (y 2).val; omega

theorem iblk1_2_eq (c : Dev nD) (v : Fin 8 → Fin 2048 → Fin 1024 → ℝ) (hv : V c main_v12 = up3 v) (t : Fin cfg1.N) :
    (iblk1 V c 2 t : Vec Ideal S1x512x1024 .bf16) = up3 (blockOf v (batchOf t.val) (kTile t.val)) := by
  obtain ⟨-, -, -, -, -, -, e0, e1, e2⟩ := idx_facts1 t
  funext y
  unfold iblk1
  rw [View.read_apply]
  show V c main_v12 (((cfg1.win 2).blk t).view.emb y) = _
  rw [hv]
  show up3 v (((cfg1.win 2).blk t).view.emb y) = up3 v (ix3 (batchOf t.val) (pos (kTile t.val) (y 1)) (y 2))
  refine congrArg (up3 v) (funext fun a => Fin.ext ?_)
  match a with
  | ⟨0, _⟩ => show win1_2.index t (0 : Fin 3) * 1 + 1 * (y 0).val = t.val / 16 % 8; have h : (y 0).val < 1 := (y 0).isLt; omega
  | ⟨1, _⟩ => show win1_2.index t (1 : Fin 3) * 512 + 1 * (y 1).val = t.val % 4 * 512 + (y 1).val; omega
  | ⟨2, _⟩ => show win1_2.index t (2 : Fin 3) * 1024 + 1 * (y 2).val = (y 2).val; omega

theorem coords_facts1 : ∀ t : Fin cfg1.N, ((grid1.coords t) 1).val = t.val / 4 % 4 ∧ ((grid1.coords t) 2).val = t.val % 4 :=
  (by decide +kernel : ∀ t : Fin grid1.N, _)

theorem prev_point {n : ℕ} (h0 : ¬ n % 4 = 0) :
    batchOf (n - 1) = batchOf n ∧ qTile (n - 1) = qTile n ∧ (kTile (n - 1)).val + 1 = (kTile n).val := by
  refine ⟨Fin.ext ?_, Fin.ext ?_, ?_⟩
  · show (n - 1) / 16 % 8 = n / 16 % 8; omega
  · show (n - 1) / 4 % 4 = n / 4 % 4; omega
  · show (n - 1) % 4 + 1 = n % 4; omega

end Cert.KernelIdeal.Val

end
-- ==== Proof.Val.Val1InvL.lean ====
import proofs.«149348_j7679401525936_1_alg».proof.Proof.Val.Val1Inv

noncomputable section

namespace Cert.KernelIdeal.Val

open Cert.KernelIdeal Cert.KernelIdeal.Gen Cert.Spec Idealize.ShloMosaic Idealize.ShloMosaic.ValueIdx

section

variable (q k : Fin 8 → Fin 2048 → Fin 1024 → ℝ) (b : Fin 8)

theorem pay7_tile {qi tl : Fin 4} (hlt : tl.val < qi.val) (l : Fin 512 → Fin 1 → ℝ) :
    k1_pay7 (F := Ideal) (up3 (blockOf q b qi)) (up3 (blockOf k b tl)) (up2 l)
      = up2 (fun r (_ : Fin 1) => l r 0 + tileL q k b qi tl r) :=
  ext_col fun r => by
    rw [pay7_apply, up2_apply, tileL_before q k b hlt r]

theorem pay10_tile (i : grid1.Coords) (hi : (i 1).val = (i 2).val) (qi : Fin 4) (l : Fin 512 → Fin 1 → ℝ) :
    k1_pay10 (F := Ideal) i (up3 (blockOf q b qi)) (up3 (blockOf k b qi)) (up2 l)
      = up2 (fun r (_ : Fin 1) => l r 0 + tileL q k b qi qi r) :=
  ext_col fun r => by
    rw [pay10_apply i hi, up2_apply, tileL_diag q k b qi r]

theorem pay12_tile {qi tl : Fin 4} (hgt : qi.val < tl.val) (l : Fin 512 → Fin 1 → ℝ) :
    k1_pay12 (F := Ideal) (up2 l) = up2 (fun r (_ : Fin 1) => l r 0 + tileL q k b qi tl r) :=
  ext_col fun r => by
    rw [pay12_apply, up2_apply, tileL_after q k b hgt r]

theorem stepL_first_before {qi : Fin 4} (h : 0 < qi.val) :
    k1_pay7 (F := Ideal) (up3 (blockOf q b qi)) (up3 (blockOf k b 0)) (k1_pay1 (F := Ideal))
      = up2 (accL q k b qi 0) := by
  rw [pay1_eq, pay7_tile q k b (qi := qi) (tl := 0) h]
  exact congrArg up2 (funext fun r => funext fun _ => (partL_zero q k b qi r).symm)

theorem stepL_first_diag (i : grid1.Coords) (hi : (i 1).val = (i 2).val) :
    k1_pay10 (F := Ideal) i (up3 (blockOf q b 0)) (up3 (blockOf k b 0)) (k1_pay1 (F := Ideal))
      = up2 (accL q k b 0 0) := by
  rw [pay1_eq, pay10_tile q k b i hi 0]
  exact congrArg up2 (funext fun r => funext fun _ => (partL_zero q k b 0 r).symm)

theorem stepL_before {qi ki' ki : Fin 4} (h : ki'.val + 1 = ki.val) (hlt : ki.val < qi.val) :
    k1_pay7 (F := Ideal) (up3 (blockOf q b qi)) (up3 (blockOf k b ki)) (up2 (accL q k b qi ki'))
      = up2 (accL q k b qi ki) := by
  rw [pay7_tile q k b hlt]
  exact congrArg up2 (funext fun r => funext fun _ => (partL_succ q k b qi ki' ki h r).symm)

theorem stepL_diag (i : grid1.Coords) (hi : (i 1).val = (i 2).val) {qi ki' : Fin 4} (h : ki'.val + 1 = qi.val) :
    k1_pay10 (F := Ideal) i (up3 (blockOf q b qi)) (up3 (blockOf k b qi)) (up2 (accL q k b qi ki'))
      = up2 (accL q k b qi qi) := by
  rw [pay10_tile q k b i hi qi]
  exact congrArg up2 (funext fun r => funext fun _ => (partL_succ q k b qi ki' qi h r).symm)

theorem stepL_after {qi ki' ki : Fin 4} (h : ki'.val + 1 = ki.val) (hgt : qi.val < ki.val) :
    k1_pay12 (F := Ideal) (up2 (accL q k b qi ki')) = up2 (accL q k b qi ki) := by
  rw [pay12_tile q k b hgt]
  exact congrArg up2 (funext fun r => funext fun _ => (partL_succ q k b qi ki' ki h r).symm)

end

end Cert.KernelIdeal.Val

end
-- ==== Proof.Val.Val1InvA.lean ====
import proofs.«149348_j7679401525936_1_alg».proof.Proof.Val.Val1Inv

noncomputable section

namespace Cert.KernelIdeal.Val

open Cert.KernelIdeal Cert.KernelIdeal.Gen Cert.Spec Idealize.ShloMosaic Idealize.ShloMosaic.ValueIdx

section
variable (q k v : Fin 8 → Fin 2048 → Fin 1024 → ℝ) (b : Fin 8)

theorem pay8_tile {qi tl : Fin 4} (hlt : tl.val < qi.val) (a : Fin 512 → Fin 1024 → ℝ) :
    k1_pay8 (F := Ideal) (up3 (blockOf q b qi)) (up3 (blockOf k b tl)) (up3 (blockOf v b tl)) (up2 a)
      = up2 (fun r d => a r d + tileA q k v b qi tl r d) :=
  ext_mat fun r d => by rw [pay8_apply, up2_apply, tileA_before q k v b hlt]

theorem pay11_tile (i : grid1.Coords) (hi : (i 1).val = (i 2).val) (qi : Fin 4) (a : Fin 512 → Fin 1024 → ℝ) :
    k1_pay11 (F := Ideal) i (up3 (blockOf q b qi)) (up3 (blockOf k b qi)) (up3 (blockOf v b qi)) (up2 a)
      = up2 (fun r d => a r d + tileA q k v b qi qi r d) :=
  ext_mat fun r d => by rw [pay11_apply i hi, up2_apply, tileA_diag]

theorem pay13_tile {qi tl : Fin 4} (hgt : qi.val < tl.val) (a : Fin 512 → Fin 1024 → ℝ) :
    k1_pay13 (F := Ideal) (up3 (blockOf v b tl)) (up2 a)
      = up2 (fun r d => a r d + tileA q k v b qi tl r d) :=
  ext_mat fun r d => by rw [pay13_apply, up2_apply, tileA_after q k v b hgt]

theorem stepA_first_before {qi : Fin 4} (h : 0 < qi.val) :
    k1_pay8 (F := Ideal) (up3 (blockOf q b qi)) (up3 (blockOf k b 0)) (up3 (blockOf v b 0)) (k1_pay2 (F := Ideal))
      = up2 (accA q k v b qi 0) := by
  rw [pay2_eq, pay8_tile q k v b (show (0 : Fin 4).val < qi.val from h)]
  exact congrArg up2 (funext fun r => funext fun d => (partA_zero q k v b qi r d).symm)

theorem stepA_first_diag (i : grid1.Coords) (hi : (i 1).val = (i 2).val) :
    k1_pay11 (F := Ideal) i (up3 (blockOf q b 0)) (up3 (blockOf k b 0)) (up3 (blockOf v b 0)) (k1_pay2 (F := Ideal))
      = up2 (accA q k v b 0 0) := by
  rw [pay2_eq, pay11_tile q k v b i hi 0]
  exact congrArg up2 (funext fun r => funext fun d => (partA_zero q k v b 0 r d).symm)

theorem stepA_before {qi ki' ki : Fin 4} (h : ki'.val + 1 = ki.val) (hlt : ki.val < qi.val) :
    k1_pay8 (F := Ideal) (up3 (blockOf q b qi)) (up3 (blockOf k b ki)) (up3 (blockOf v b ki)) (up2 (accA q k v b qi ki'))
      = up2 (accA q k v b qi ki) := by
  rw [pay8_tile q k v b hlt]
  exact congrArg up2 (funext fun r => funext fun d => (partA_succ q k v b qi ki' ki h r d).symm)

theorem stepA_diag (i : grid1.Coords) (hi : (i 1).val = (i 2).val) {qi ki' : Fin 4} (h : ki'.val + 1 = qi.val) :
    k1_pay11 (F := Ideal) i (up3 (blockOf q b qi)) (up3 (blockOf k b qi)) (up3 (blockOf v b qi)) (up2 (accA q k v b qi ki'))
      = up2 (accA q k v b qi qi) := by
  rw [pay11_tile q k v b i hi qi]
  exact congrArg up2 (funext fun r => funext fun d => (partA_succ q k v b qi ki' qi h r d).symm)

theorem stepA_after {qi ki' ki : Fin 4} (h : ki'.val + 1 = ki.val) (hgt : qi.val < ki.val) :
    k1_pay13 (F := Ideal) (up3 (blockOf v b ki)) (up2 (accA q k v b qi ki'))
      = up2 (accA q k v b qi ki) := by
  rw [pay13_tile q k v b hgt]
  exact congrArg up2 (funext fun r => funext fun d => (partA_succ q k v b qi ki' ki h r d).symm)

theorem out_last (qi : Fin 4) (r : Fin 512) (d : Fin 1024) :
    k1_pay14 (F := Ideal) (up2 (accA q k v b qi 3)) (up2 (accL q k b qi 3)) (ix3 (0 : Fin 1) r d)
      = Ideal.div ((weighted q k v b (pos qi r) d : ℝ) : EReal) ((denom q k b (pos qi r) : ℝ) : EReal) := by
  rw [pay14_apply]
  show Ideal.div ((partA q k v b qi 3 r d : ℝ) : EReal) ((partL q k b qi 3 r + eps : ℝ) : EReal) = _
  rw [partA_last, partL_last]
  rfl

end

end Cert.KernelIdeal.Val

end
-- ==== Proof.Val.Val1.lean ====
import proofs.«149348_j7679401525936_1_alg».proof.Proof.KI.R1Dat
import proofs.«149348_j7679401525936_1_alg».proof.Proof.KI.R1Pieces
import proofs.«149348_j7679401525936_1_alg».proof.Proof.Val.Val1Blocks
import proofs.«149348_j7679401525936_1_alg».proof.Proof.Val.Val1InvL
import proofs.«149348_j7679401525936_1_alg».proof.Proof.Val.Val1InvA

noncomputable section

namespace Cert.KernelIdeal.Val

open Cert.KernelIdeal Cert.KernelIdeal.Gen Cert.KernelIdeal.Hand Cert.Spec Idealize.ShloMosaic Idealize.ShloMosaic.ValueIdx
open Idealize.ShloMosaic.TcCoe

variable (V : (c : Dev nD) → (b : Ref sig .tc) → Buf (Elt Ideal) ((c : Thread nD τ).loc b))

theorem ptA_eq (c : Dev nD) (t : Fin cfg1.N) (h0 : t.val % 4 = 0) (h1 : ¬t.val % 4 < t.val / 4 % 4) (h2 : t.val % 4 = t.val / 4 % 4) (h3 : ¬t.val / 4 % 4 < t.val % 4) (h4 : ¬t.val % 4 = 3) :
    (ptA V c t h0 h1 h2 h3 h4).2.1 = k1_pay10 (grid1.coords t) (iblk1 V c 0 t) (iblk1 V c 1 t) (k1_pay1 (F := Ideal))
      ∧ (ptA V c t h0 h1 h2 h3 h4).2.2 = k1_pay11 (grid1.coords t) (iblk1 V c 0 t) (iblk1 V c 1 t) (iblk1 V c 2 t) (k1_pay2 (F := Ideal)) := by
  unfold ptA
  dsimp only
  exact ⟨sout1_A_0_eq ..,
    sout1_A_1_eq ..⟩

theorem ptB_eq (c : Dev nD) (t : Fin cfg1.N) (h0 : t.val % 4 = 0) (h1 : t.val % 4 < t.val / 4 % 4) (h2 : ¬t.val % 4 = t.val / 4 % 4) (h3 : ¬t.val / 4 % 4 < t.val % 4) (h4 : ¬t.val % 4 = 3) :
    (ptB V c t h0 h1 h2 h3 h4).2.1 = k1_pay7 (iblk1 V c 0 t) (iblk1 V c 1 t) (k1_pay1 (F := Ideal))
      ∧ (ptB V c t h0 h1 h2 h3 h4).2.2 = k1_pay8 (iblk1 V c 0 t) (iblk1 V c 1 t) (iblk1 V c 2 t) (k1_pay2 (F := Ideal)) := by
  unfold ptB
  dsimp only
  exact ⟨sout1_B_0_eq ..,
    sout1_B_1_eq ..⟩

theorem ptC_eq (c : Dev nD) (t : Fin cfg1.N) (h0 : ¬t.val % 4 = 0) (h1 : t.val % 4 < t.val / 4 % 4) (h2 : ¬t.val % 4 = t.val / 4 % 4) (h3 : ¬t.val / 4 % 4 < t.val % 4) (h4 : ¬t.val % 4 = 3) (xs0 : Vec Ideal S512x1 .f32) (xs1 : Vec Ideal S512x1024 .f32) :
    (ptC V c t h0 h1 h2 h3 h4 xs0 xs1).2.1 = k1_pay7 (iblk1 V c 0 t) (iblk1 V c 1 t) xs0
      ∧ (ptC V c t h0 h1 h2 h3 h4 xs0 xs1).2.2 = k1_pay8 (iblk1 V c 0 t) (iblk1 V c 1 t) (iblk1 V c 2 t) xs1 := by
  unfold ptC
  dsimp only
  exact ⟨sout1_C_0_eq ..,
    sout1_C_1_eq ..⟩

theorem ptD_eq (c : Dev nD) (t : Fin cfg1.N) (h0 : ¬t.val % 4 = 0) (h1 : ¬t.val % 4 < t.val / 4 % 4) (h2 : t.val % 4 = t.val / 4 % 4) (h3 : ¬t.val / 4 % 4 < t.val % 4) (h4 : ¬t.val % 4 = 3) (xs0 : Vec Ideal S512x1 .f32) (xs1 : Vec Ideal S512x1024 .f32) :
    (ptD V c t h0 h1 h2 h3 h4 xs0 xs1).2.1 = k1_pay10 (grid1.coords t) (iblk1 V c 0 t) (iblk1 V c 1 t) xs0
      ∧ (ptD V c t h0 h1 h2 h3 h4 xs0 xs1).2.2 = k1_pay11 (grid1.coords t) (iblk1 V c 0 t) (iblk1 V c 1 t) (iblk1 V c 2 t) xs1 := by
  unfold ptD
  dsimp only
  exact ⟨sout1_D_0_eq ..,
    sout1_D_1_eq ..⟩

theorem ptE_eq (c : Dev nD) (t : Fin cfg1.N) (h0 : ¬t.val % 4 = 0) (h1 : ¬t.val % 4 < t.val / 4 % 4) (h2 : ¬t.val % 4 = t.val / 4 % 4) (h3 : t.val / 4 % 4 < t.val % 4) (h4 : ¬t.val % 4 = 3) (xs0 : Vec Ideal S512x1 .f32) (xs1 : Vec Ideal S512x1024 .f32) :
    (ptE V c t h0 h1 h2 h3 h4 xs0 xs1).2.1 = k1_pay12 xs0
      ∧ (ptE V c t h0 h1 h2 h3 h4 xs0 xs1).2.2 = k1_pay13 (iblk1 V c 2 t) xs1 := by
  unfold ptE
  dsimp only
  exact ⟨sout1_E_0_eq ..,
    sout1_E_1_eq ..⟩

theorem ptF_eq (c : Dev nD) (t : Fin cfg1.N) (h0 : ¬t.val % 4 = 0) (h1 : ¬t.val % 4 < t.val / 4 % 4) (h2 : t.val % 4 = t.val / 4 % 4) (h3 : ¬t.val / 4 % 4 < t.val % 4) (h4 : t.val % 4 = 3) (xs0 : Vec Ideal S512x1 .f32) (xs1 : Vec Ideal S512x1024 .f32) :
    (ptF V c t h0 h1 h2 h3 h4 xs0 xs1).2.1 = k1_pay10 (grid1.coords t) (iblk1 V c 0 t) (iblk1 V c 1 t) xs0
      ∧ (ptF V c t h0 h1 h2 h3 h4 xs0 xs1).2.2 = k1_pay11 (grid1.coords t) (iblk1 V c 0 t) (iblk1 V c 1 t) (iblk1 V c 2 t) xs1
      ∧ (ptF V c t h0 h1 h2 h3 h4 xs0 xs1).1 = k1_pay14 (k1_pay11 (grid1.coords t) (iblk1 V c 0 t) (iblk1 V c 1 t) (iblk1 V c 2 t) xs1) (k1_pay10 (grid1.coords t) (iblk1 V c 0 t) (iblk1 V c 1 t) xs0) := by
  unfold ptF
  dsimp only
  exact ⟨sout1_F_0_eq ..,
    sout1_F_1_eq ..,
    out1_F_3_eq ..⟩

theorem ptG_eq (c : Dev nD) (t : Fin cfg1.N) (h0 : ¬t.val % 4 = 0) (h1 : ¬t.val % 4 < t.val / 4 % 4) (h2 : ¬t.val % 4 = t.val / 4 % 4) (h3 : t.val / 4 % 4 < t.val % 4) (h4 : t.val % 4 = 3) (xs0 : Vec Ideal S512x1 .f32) (xs1 : Vec Ideal S512x1024 .f32) :
    (ptG V c t h0 h1 h2 h3 h4 xs0 xs1).2.1 = k1_pay12 xs0
      ∧ (ptG V c t h0 h1 h2 h3 h4 xs0 xs1).2.2 = k1_pay13 (iblk1 V c 2 t) xs1
      ∧ (ptG V c t h0 h1 h2 h3 h4 xs0 xs1).1 = k1_pay14 (k1_pay13 (iblk1 V c 2 t) xs1) (k1_pay12 xs0) := by
  unfold ptG
  dsimp only
  exact ⟨sout1_G_0_eq ..,
    sout1_G_1_eq ..,
    out1_G_3_eq ..⟩

theorem acc_inv (c : Dev nD) (q k v : Fin 8 → Fin 2048 → Fin 1024 → ℝ)
    (hq : V c main_v10 = up3 q) (hk : V c main_v11 = up3 k) (hv : V c main_v12 = up3 v) :
    ∀ (n : ℕ) (hn : n < cfg1.N),
      (outsAt1 V c n hn).2.1 = up2 (accL q k (batchOf n) (qTile n) (kTile n))
      ∧ (outsAt1 V c n hn).2.2 = up2 (accA q k v (batchOf n) (qTile n) (kTile n)) := by
  intro n
  induction n using Nat.strong_induction_on with
  | _ n ih =>
    intro hn
    obtain ⟨t, rfl⟩ : ∃ t : Fin cfg1.N, t.val = n := ⟨⟨n, hn⟩, rfl⟩
    obtain ⟨c1, c2⟩ := coords_facts1 t
    rcases Nat.lt_trichotomy (t.val % 4) (t.val / 4 % 4) with hlt | heq | hgt
    ·
      have h2 : ¬t.val % 4 = t.val / 4 % 4 := by omega
      have h3 : ¬t.val / 4 % 4 < t.val % 4 := by omega
      have h4 : ¬t.val % 4 = 3 := by omega
      by_cases h0 : t.val % 4 = 0
      · rw [outsAt1_B V c t h0 hlt h2 h3 h4]
        obtain ⟨e0, e1⟩ := ptB_eq V c t h0 hlt h2 h3 h4
        have hk0 : kTile t.val = 0 := Fin.ext h0
        rw [e0, e1, iblk1_0_eq V c q hq t, iblk1_1_eq V c k hk t, iblk1_2_eq V c v hv t, hk0]
        have hpos : 0 < (qTile t.val).val := by show 0 < t.val / 4 % 4; omega
        exact ⟨stepL_first_before q k (batchOf t.val) hpos, stepA_first_before q k v (batchOf t.val) hpos⟩
      · obtain ⟨pb, pq, pk⟩ := prev_point h0
        obtain ⟨i0, i1⟩ := ih (t.val - 1) (by omega) (Nat.lt_of_le_of_lt (Nat.sub_le _ _) t.isLt)
        rw [outsAt1_C V c t h0 hlt h2 h3 h4]
        obtain ⟨e0, e1⟩ := ptC_eq V c t h0 hlt h2 h3 h4 (outsAt1 V c (t.val - 1) (Nat.lt_of_le_of_lt (Nat.sub_le _ _) t.isLt)).2.1 (outsAt1 V c (t.val - 1) (Nat.lt_of_le_of_lt (Nat.sub_le _ _) t.isLt)).2.2
        rw [e0, e1, i0, i1, pb, pq, iblk1_0_eq V c q hq t, iblk1_1_eq V c k hk t, iblk1_2_eq V c v hv t]
        have hlt' : (kTile t.val).val < (qTile t.val).val := hlt
        exact ⟨stepL_before q k (batchOf t.val) pk hlt', stepA_before q k v (batchOf t.val) pk hlt'⟩
    ·
      have h1 : ¬t.val % 4 < t.val / 4 % 4 := by omega
      have h3 : ¬t.val / 4 % 4 < t.val % 4 := by omega
      have hi : ((grid1.coords t) 1).val = ((grid1.coords t) 2).val := by rw [c1, c2]; exact heq.symm
      have hkq : kTile t.val = qTile t.val := Fin.ext heq
      by_cases h0 : t.val % 4 = 0
      · have h4 : ¬t.val % 4 = 3 := by omega
        rw [outsAt1_A V c t h0 h1 heq h3 h4]
        obtain ⟨e0, e1⟩ := ptA_eq V c t h0 h1 heq h3 h4
        have hk0 : kTile t.val = 0 := Fin.ext h0
        have hq0 : qTile t.val = 0 := Fin.ext (show t.val / 4 % 4 = 0 by omega)
        rw [e0, e1, iblk1_0_eq V c q hq t, iblk1_1_eq V c k hk t, iblk1_2_eq V c v hv t, hk0, hq0]
        exact ⟨stepL_first_diag q k (batchOf t.val) (grid1.coords t) hi, stepA_first_diag q k v (batchOf t.val) (grid1.coords t) hi⟩
      · obtain ⟨pb, pq, pk⟩ := prev_point h0
        obtain ⟨i0, i1⟩ := ih (t.val - 1) (by omega) (Nat.lt_of_le_of_lt (Nat.sub_le _ _) t.isLt)
        have pk' : (kTile (t.val - 1)).val + 1 = (qTile t.val).val := pk.trans (congrArg Fin.val hkq)
        by_cases h4 : t.val % 4 = 3
        · rw [outsAt1_F V c t h0 h1 heq h3 h4]
          obtain ⟨e0, e1, -⟩ := ptF_eq V c t h0 h1 heq h3 h4 (outsAt1 V c (t.val - 1) (Nat.lt_of_le_of_lt (Nat.sub_le _ _) t.isLt)).2.1 (outsAt1 V c (t.val - 1) (Nat.lt_of_le_of_lt (Nat.sub_le _ _) t.isLt)).2.2
          rw [e0, e1, i0, i1, pb, pq, iblk1_0_eq V c q hq t, iblk1_1_eq V c k hk t, iblk1_2_eq V c v hv t, hkq]
          exact ⟨stepL_diag q k (batchOf t.val) (grid1.coords t) hi pk', stepA_diag q k v (batchOf t.val) (grid1.coords t) hi pk'⟩
        · rw [outsAt1_D V c t h0 h1 heq h3 h4]
          obtain ⟨e0, e1⟩ := ptD_eq V c t h0 h1 heq h3 h4 (outsAt1 V c (t.val - 1) (Nat.lt_of_le_of_lt (Nat.sub_le _ _) t.isLt)).2.1 (outsAt1 V c (t.val - 1) (Nat.lt_of_le_of_lt (Nat.sub_le _ _) t.isLt)).2.2
          rw [e0, e1, i0, i1, pb, pq, iblk1_0_eq V c q hq t, iblk1_1_eq V c k hk t, iblk1_2_eq V c v hv t, hkq]
          exact ⟨stepL_diag q k (batchOf t.val) (grid1.coords t) hi pk', stepA_diag q k v (batchOf t.val) (grid1.coords t) hi pk'⟩
    ·
      have h0 : ¬t.val % 4 = 0 := by omega
      have h1 : ¬t.val % 4 < t.val / 4 % 4 := by omega
      have h2 : ¬t.val % 4 = t.val / 4 % 4 := by omega
      obtain ⟨pb, pq, pk⟩ := prev_point h0
      obtain ⟨i0, i1⟩ := ih (t.val - 1) (by omega) (Nat.lt_of_le_of_lt (Nat.sub_le _ _) t.isLt)
      have hgt' : (qTile t.val).val < (kTile t.val).val := hgt
      by_cases h4 : t.val % 4 = 3
      · rw [outsAt1_G V c t h0 h1 h2 hgt h4]
        obtain ⟨e0, e1, -⟩ := ptG_eq V c t h0 h1 h2 hgt h4 (outsAt1 V c (t.val - 1) (Nat.lt_of_le_of_lt (Nat.sub_le _ _) t.isLt)).2.1 (outsAt1 V c (t.val - 1) (Nat.lt_of_le_of_lt (Nat.sub_le _ _) t.isLt)).2.2
        rw [e0, e1, i0, i1, pb, pq, iblk1_2_eq V c v hv t]
        exact ⟨stepL_after q k (batchOf t.val) pk hgt', stepA_after q k v (batchOf t.val) pk hgt'⟩
      · rw [outsAt1_E V c t h0 h1 h2 hgt h4]
        obtain ⟨e0, e1⟩ := ptE_eq V c t h0 h1 h2 hgt h4 (outsAt1 V c (t.val - 1) (Nat.lt_of_le_of_lt (Nat.sub_le _ _) t.isLt)).2.1 (outsAt1 V c (t.val - 1) (Nat.lt_of_le_of_lt (Nat.sub_le _ _) t.isLt)).2.2
        rw [e0, e1, i0, i1, pb, pq, iblk1_2_eq V c v hv t]
        exact ⟨stepL_after q k (batchOf t.val) pk hgt', stepA_after q k v (batchOf t.val) pk hgt'⟩

theorem out_eq_pay14 (c : Dev nD) (t : Fin cfg1.N) (h4 : t.val % 4 = 3) :
    (outsAt1 V c t.val t.isLt).1 = k1_pay14 (outsAt1 V c t.val t.isLt).2.2 (outsAt1 V c t.val t.isLt).2.1 := by
  have h0 : ¬t.val % 4 = 0 := by omega
  have h1 : ¬t.val % 4 < t.val / 4 % 4 := by omega
  rcases Nat.lt_or_ge (t.val / 4 % 4) (t.val % 4) with hgt | hge
  · have h2 : ¬t.val % 4 = t.val / 4 % 4 := by omega
    rw [outsAt1_G V c t h0 h1 h2 hgt h4]
    obtain ⟨e0, e1, e2⟩ := ptG_eq V c t h0 h1 h2 hgt h4 (outsAt1 V c (t.val - 1) (Nat.lt_of_le_of_lt (Nat.sub_le _ _) t.isLt)).2.1 (outsAt1 V c (t.val - 1) (Nat.lt_of_le_of_lt (Nat.sub_le _ _) t.isLt)).2.2
    rw [e0, e1, e2]
  · have heq : t.val % 4 = t.val / 4 % 4 := by omega
    have h3 : ¬t.val / 4 % 4 < t.val % 4 := by omega
    rw [outsAt1_F V c t h0 h1 heq h3 h4]
    obtain ⟨e0, e1, e2⟩ := ptF_eq V c t h0 h1 heq h3 h4 (outsAt1 V c (t.val - 1) (Nat.lt_of_le_of_lt (Nat.sub_le _ _) t.isLt)).2.1 (outsAt1 V c (t.val - 1) (Nat.lt_of_le_of_lt (Nat.sub_le _ _) t.isLt)).2.2
    rw [e0, e1, e2]

theorem out_at_store (c : Dev nD) (q k v : Fin 8 → Fin 2048 → Fin 1024 → ℝ)
    (hq : V c main_v10 = up3 q) (hk : V c main_v11 = up3 k) (hv : V c main_v12 = up3 v)
    (t : Fin cfg1.N) (ht : t.val % 4 = 3) (r : Fin 512) (d : Fin 1024)
    (b : Fin 8) (i : Fin 2048) (hb : b.val = t.val / 16) (hi : i.val = (t.val / 4 % 4) * 512 + r.val) :
    (outsAt1 V c t.val t.isLt).1 (ix3 (0 : Fin 1) r d)
      = Ideal.div ((weighted q k v b i d : ℝ) : EReal) ((denom q k b i : ℝ) : EReal) := by
  obtain ⟨a0, a1⟩ := acc_inv V c q k v hq hk hv t.val t.isLt
  have hN : cfg1.N = 128 := N_1
  have hk3 : kTile t.val = 3 := Fin.ext ht
  have hbb : b = batchOf t.val := Fin.ext (by
    show b.val = t.val / 16 % 8
    have := t.isLt
    omega)
  have hii : i = pos (qTile t.val) r := Fin.ext hi
  rw [out_eq_pay14 V c t ht, a0, a1, hk3, hbb, hii]
  exact out_last q k v (batchOf t.val) (qTile t.val) r d

end Cert.KernelIdeal.Val

end
-- ==== Proof.Val.Val1Cover.lean ====
import proofs.«149348_j7679401525936_1_alg».proof.Proof.Gen.KernelIdeal.Launch
import proofs.«149348_j7679401525936_1_alg».proof.Proof.Gen.KernelIdeal.Points
import proofs.«149348_j7679401525936_1_alg».proof.Proof.Spec
import Idealize.ShloMosaic.PureOps.Ideal.Laws
import Idealize.ShloMosaic.Lib.ValueIdx
import Idealize.ShloMosaic.Lib.Pipeline.Value
import Idealize.ShloMosaic.Lib.Tactic

noncomputable section

namespace Cert.KernelIdeal.Val

open Cert.KernelIdeal Cert.KernelIdeal.Gen Cert.Spec Idealize.ShloMosaic Idealize.ShloMosaic.ValueIdx
open Idealize.ShloMosaic.TcCoe Idealize.SL Idealize.SL.Sem
open Idealize.ShloMosaic.Pipeline (Dat)

def attnOut (q k v : Fin 8 → Fin 2048 → Fin 1024 → ℝ) : S8x2048x1024.Idx → EReal :=
  fun j => Ideal.div ((weighted q k v (j 0) (j 1) (j 2) : ℝ) : EReal) ((denom q k (j 0) (j 1) : ℝ) : EReal)

theorem idx_out1 : ∀ t : Fin cfg1.N, win1_3.index t (0 : Fin 3) = t.val / 16 ∧ win1_3.index t (1 : Fin 3) = t.val / 4 % 4
    ∧ win1_3.index t (2 : Fin 3) = 0 :=
  (by decide +kernel : ∀ t : Fin grid1.N, _)

theorem point1 (X : Vec Ideal S1x512x1024 .f32) (q k v : Fin 8 → Fin 2048 → Fin 1024 → ℝ) (tb tq : Nat)
    (hX : ∀ (r : Fin 512) (d : Fin 1024) (b : Fin 8) (i : Fin 2048), b.val = tb → i.val = tq * 512 + r.val →
      X (ix3 (0 : Fin 1) r d) = Ideal.div ((weighted q k v b i d : ℝ) : EReal) ((denom q k b i : ℝ) : EReal))
    (y : S1x512x1024.Idx) (j : S8x2048x1024.Idx)
    (h0 : (j 0).val = tb + (y 0).val) (h1 : (j 1).val = tq * 512 + (y 1).val) (h2 : (j 2).val = (y 2).val) :
    X y = attnOut q k v j := by
  obtain ⟨z, r, d, rfl⟩ : ∃ (z : Fin 1) (r : Fin 512) (d : Fin 1024), y = ix3 z r d := ⟨y 0, y 1, y 2, eq_ix3 y⟩
  obtain ⟨b, i, d', rfl⟩ : ∃ (b : Fin 8) (i : Fin 2048) (d' : Fin 1024), j = ix3 b i d' := ⟨j 0, j 1, j 2, eq_ix3 j⟩
  obtain rfl : z = 0 := Subsingleton.elim _ _
  obtain rfl : d' = d := Fin.ext h2
  rw [hX r _ b i (by simpa using h0) h1]
  rfl

theorem mem_blk1 (t : Fin cfg1.N) (i : S8x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v13).slice (win1_3.rect t)).set ↔ _
  rw [View.set_slice_whole, Rect.mem_set_unit]
  exact Iff.rfl

theorem cover1 (i : S8x2048x1024.Idx) :
    ∃ t : Fin cfg1.N, (cfg1.win 3).flush t = true ∧ i ∈ ((cfg1.win 3).blk t).view.set := by
  have hN : cfg1.N = 128 := N_1
  have hi0 : (i 0).val < 8 := (i 0).isLt
  have hi1 : (i 1).val < 2048 := (i 1).isLt
  have hi2 : (i 2).val < 1024 := (i 2).isLt
  let t : Fin cfg1.N := ⟨16 * (i 0).val + 4 * ((i 1).val / 512) + 3, by omega⟩
  obtain ⟨e0, e1, e2⟩ := idx_out1 t
  have ht : t.val = 16 * (i 0).val + 4 * ((i 1).val / 512) + 3 := rfl
  refine ⟨t, (flush1_3 t).mpr (by omega), ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

section

variable {c : Dev nD} (dat : Dat τ (Elt Ideal) Unit ℕ (UR sig nD τ) ℕ cfg1 c)
  (q k v : Fin 8 → Fin 2048 → Fin 1024 → ℝ)
  (hstore : ∀ t : Fin cfg1.N, t.val % 4 = 3 → ∀ (r : Fin 512) (d : Fin 1024) (b : Fin 8) (i : Fin 2048),
    b.val = t.val / 16 → i.val = (t.val / 4 % 4) * 512 + r.val →
    (dat.after 3 t : Vec Ideal S1x512x1024 .f32) (ix3 (0 : Fin 1) r d)
      = Ideal.div ((weighted q k v b i d : ℝ) : EReal) ((denom q k b i : ℝ) : EReal))

include hstore in
theorem flushed1_eq (t : Fin cfg1.N) (ht : t.val % 4 = 3) :
    dat.flushed 3 t = ((cfg1.win 3).blk t).view.read (Elt Ideal) (attnOut q k v) := by
  show (cfg1.win 3).cut (grid1.coords t) (dat.after 3 t) = _
  obtain ⟨e0, e1, e2⟩ := idx_out1 t
  funext j
  refine point1 (dat.after 3 t) q k v (t.val / 16) (t.val / 4 % 4) (fun r d b i hb hi => hstore t ht r d b i hb hi) j _ ?_ ?_ ?_
  · show win1_3.index t (0 : Fin 3) * 1 + 1 * (j 0).val = t.val / 16 + (j 0).val
    rw [e0]; omega
  · show win1_3.index t (1 : Fin 3) * 512 + 1 * (j 1).val = t.val / 4 % 4 * 512 + (j 1).val
    rw [e1]; omega
  · show win1_3.index t (2 : Fin 3) * 1024 + 1 * (j 2).val = (j 2).val
    rw [e2]; omega

include hstore in
theorem final1_of : dat.arrAt 3 cfg1.N = attnOut q k v :=
  dat.arrAt_eq_of_cover 3 (attnOut q k v) (fun t hf => flushed1_eq dat q k v hstore t ((flush1_3 t).mp hf)) cover1

end

end Cert.KernelIdeal.Val

end
-- ==== Proof.Val.Val1Final.lean ====
import proofs.«149348_j7679401525936_1_alg».proof.Proof.KI.R1
import proofs.«149348_j7679401525936_1_alg».proof.Proof.Val.Val1
import proofs.«149348_j7679401525936_1_alg».proof.Proof.Val.Val1Cover

noncomputable section

namespace Cert.KernelIdeal.Val

open Cert.KernelIdeal Cert.KernelIdeal.Gen Cert.Spec Idealize.ShloMosaic Idealize.ShloMosaic.ValueIdx
open Idealize.ShloMosaic.TcCoe Idealize.SL Idealize.SL.Sem
open Idealize.ShloMosaic.Pipeline (Dat)

variable (V : (c : Dev nD) → (b : Ref sig .tc) → Buf (Elt Ideal) ((c : Thread nD τ).loc b))

theorem final1 (c : Dev nD) (q k v : Fin 8 → Fin 2048 → Fin 1024 → ℝ)
    (hq : V c main_v10 = up3 q) (hk : V c main_v11 = up3 k) (hv : V c main_v12 = up3 v) :
    (Hand.dat1 (F := Ideal) V c).arrAt 3 cfg1.N
      = fun j => Ideal.div ((weighted q k v (j 0) (j 1) (j 2) : ℝ) : EReal) ((denom q k (j 0) (j 1) : ℝ) : EReal) :=
  final1_of (Hand.dat1 (F := Ideal) V c) q k v fun t ht r d b i hb hi => by
    rw [Hand.after1_3]
    exact out_at_store V c q k v hq hk hv t ht r d b i hb hi

end Cert.KernelIdeal.Val

end
-- ==== Proof.Val.Pay2.lean ====
import proofs.«149348_j7679401525936_1_alg».proof.Proof.Val.Pay1

noncomputable section

namespace Cert.KernelIdeal.Val

open Cert.KernelIdeal Cert.KernelIdeal.Gen Cert.Spec Idealize.ShloMosaic Idealize.ShloMosaic.ValueIdx

theorem outproj_pay_apply (y : Fin 256 → Fin 1024 → ℝ) (w : Fin 1024 → Fin 1024 → ℝ) (bias : Fin 1 → Fin 1024 → ℝ) (p : Fin 256) (e : Fin 1024) :
    k2_pay1 (F := Ideal) (up2 y) (up2 w) (up2 bias) (ix2 p e) = (((∑ d : Fin 1024, y p d * w d e) + bias 0 e : ℝ) : EReal) := by
  unfold k2_pay1
  rw [addf_apply, shapeCast_self, shapeCast_self, shapeCast_self, broadcastTo_1b_ab_apply, up2_apply, EReal.coe_add, coe_finsum]
  exact congrArg (· + ((bias 0 e : ℝ) : EReal)) ((matmul_plain_apply 256 1024 1024 (φ := .bf16) (ψ := .bf16) _ _ p e).trans
    (Finset.sum_congr rfl fun k _ => (EReal.coe_mul _ _).symm))

end Cert.KernelIdeal.Val

end
-- ==== Proof.Val.Val2.lean ====
import proofs.«149348_j7679401525936_1_alg».proof.Proof.KI.R2
import proofs.«149348_j7679401525936_1_alg».proof.Proof.Val.Pay2
import Idealize.ShloMosaic.Lib.Pipeline.Value
import Idealize.ShloMosaic.Lib.Tactic

noncomputable section

namespace Cert.KernelIdeal.Val

open Cert.KernelIdeal Cert.KernelIdeal.Gen Cert.Spec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem rows2_lt (t : Nat) (ht : t < 64) (p : Fin 256) : 256 * t + p.val < 16384 := by
  have := p.isLt; omega

def rows2 (y : Fin 16384 → Fin 1024 → ℝ) (t : Nat) (ht : t < 64) : Fin 256 → Fin 1024 → ℝ :=
  fun p d => y ⟨256 * t + p.val, rows2_lt t ht p⟩ d

def affine2 (y : Fin 16384 → Fin 1024 → ℝ) (w : Fin 1024 → Fin 1024 → ℝ) (bias : Fin 1 → Fin 1024 → ℝ) :
    Fin 16384 → Fin 1024 → ℝ :=
  fun r e => (∑ d : Fin 1024, y r d * w d e) + bias 0 e

theorem lt64_2 (t : Fin cfg2.N) : t.val < 64 := by
  have := t.isLt; have hN : cfg2.N = 64 := N_2; omega

theorem iblk2_0_eq (c : Dev nD) (y : Fin 16384 → Fin 1024 → ℝ) (hy : V c main_v14 = up2 y) (t : Fin cfg2.N) :
    (Hand.iblk2 V c 0 t : Vec Ideal S256x1024 .f32) = up2 (rows2 y t.val (lt64_2 t)) := by
  obtain ⟨e0, e1, -⟩ := idx_facts2 t
  funext x
  obtain ⟨p, d, rfl⟩ : ∃ (p : Fin 256) (d : Fin 1024), x = ix2 p d := ⟨x 0, x 1, eq_ix2 x⟩
  unfold Hand.iblk2
  rw [View.read_apply]
  show (V c main_v14 : S16384x1024.Idx → EReal) (((cfg2.win 0).blk t).view.emb (ix2 p d)) = _
  rw [hy]
  show ((y _ _ : ℝ) : EReal) = ((y _ _ : ℝ) : EReal)
  congr 2 <;> apply Fin.ext
  · show win2_0.index t (0 : Fin 2) * 256 + 1 * p.val = 256 * t.val + p.val
    rw [e0]; omega
  · show win2_0.index t (1 : Fin 2) * 1024 + 1 * d.val = d.val
    rw [e1]; omega

theorem iblk2_1_eq (c : Dev nD) (w : Fin 1024 → Fin 1024 → ℝ) (hw : V c main_v16 = up2 w) (t : Fin cfg2.N) :
    (Hand.iblk2 V c 1 t : Vec Ideal S1024x1024 .bf16) = up2 w := by
  obtain ⟨-, -, e0, e1, -⟩ := idx_facts2 t
  funext x
  obtain ⟨d, e, rfl⟩ : ∃ (d : Fin 1024) (e : Fin 1024), x = ix2 d e := ⟨x 0, x 1, eq_ix2 x⟩
  unfold Hand.iblk2
  rw [View.read_apply]
  show (V c main_v16 : S1024x1024.Idx → EReal) (((cfg2.win 1).blk t).view.emb (ix2 d e)) = _
  rw [hw]
  show ((w _ _ : ℝ) : EReal) = ((w _ _ : ℝ) : EReal)
  congr 2 <;> apply Fin.ext
  · show win2_1.index t (0 : Fin 2) * 1024 + 1 * d.val = d.val
    rw [e0]; omega
  · show win2_1.index t (1 : Fin 2) * 1024 + 1 * e.val = e.val
    rw [e1]; omega

theorem iblk2_2_eq (c : Dev nD) (bias : Fin 1 → Fin 1024 → ℝ) (hb : V c main_v17 = up2 bias) (t : Fin cfg2.N) :
    (Hand.iblk2 V c 2 t : Vec Ideal S1x1024 .f32) = up2 bias := by
  obtain ⟨-, -, -, -, e0, e1, -⟩ := idx_facts2 t
  funext x
  obtain ⟨z, e, rfl⟩ : ∃ (z : Fin 1) (e : Fin 1024), x = ix2 z e := ⟨x 0, x 1, eq_ix2 x⟩
  unfold Hand.iblk2
  rw [View.read_apply]
  show (V c main_v17 : S1x1024.Idx → EReal) (((cfg2.win 2).blk t).view.emb (ix2 z e)) = _
  rw [hb]
  show ((bias _ _ : ℝ) : EReal) = ((bias _ _ : ℝ) : EReal)
  congr 2 <;> apply Fin.ext
  · show win2_2.index t (0 : Fin 2) * 1 + 1 * z.val = z.val
    rw [e0]; omega
  · show win2_2.index t (1 : Fin 2) * 1024 + 1 * e.val = e.val
    rw [e1]; omega

theorem point2 (y : Fin 16384 → Fin 1024 → ℝ) (w : Fin 1024 → Fin 1024 → ℝ) (bias : Fin 1 → Fin 1024 → ℝ)
    (t : Nat) (ht : t < 64) (x : S256x1024.Idx) (i : S16384x1024.Idx)
    (h0 : (i 0).val = 256 * t + (x 0).val) (h1 : (i 1).val = (x 1).val) :
    k2_pay1 (F := Ideal) (up2 (rows2 y t ht)) (up2 w) (up2 bias) x = up2 (affine2 y w bias) i := by
  obtain ⟨p, e, rfl⟩ : ∃ (p : Fin 256) (e : Fin 1024), x = ix2 p e := ⟨x 0, x 1, eq_ix2 x⟩
  obtain ⟨r, e', rfl⟩ : ∃ (r : Fin 16384) (e' : Fin 1024), i = ix2 r e' := ⟨i 0, i 1, eq_ix2 i⟩
  obtain rfl : e' = e := Fin.ext h1
  obtain rfl : r = ⟨256 * t + p.val, rows2_lt t ht p⟩ := Fin.ext h0
  rw [outproj_pay_apply, up2_apply]
  rfl

theorem flushed2_eq (c : Dev nD) (y : Fin 16384 → Fin 1024 → ℝ) (w : Fin 1024 → Fin 1024 → ℝ) (bias : Fin 1 → Fin 1024 → ℝ)
    (hy : V c main_v14 = up2 y) (hw : V c main_v16 = up2 w) (hb : V c main_v17 = up2 bias) (t : Fin cfg2.N) :
    (Hand.dat2 (F := Ideal) V c).flushed 3 t = ((cfg2.win 3).blk t).view.read (Elt Ideal) (up2 (affine2 y w bias)) := by
  show (cfg2.win 3).cut (grid2.coords t) ((Hand.dat2 (F := Ideal) V c).after 3 t) = _
  rw [Hand.after2_3]
  unfold Hand.out2_3
  rw [View.canon_unit_zero hz2]
  simp only [View.ld_unit_zero (S := S256x1024) hz2, View.ld_unit_zero (S := S1024x1024) hz2, View.ld_unit_zero (S := S1x1024) hz2]
  rw [iblk2_0_eq V c y hy t, iblk2_1_eq V c w hw t, iblk2_2_eq V c bias hb t]
  obtain ⟨-, -, -, -, -, -, e0, e1⟩ := idx_facts2 t
  funext j
  refine point2 y w bias t.val (lt64_2 t) j _ ?_ ?_
  · show win2_3.index t (0 : Fin 2) * 256 + 1 * (j 0).val = 256 * t.val + (j 0).val
    rw [e0]; omega
  · show win2_3.index t (1 : Fin 2) * 1024 + 1 * (j 1).val = (j 1).val
    rw [e1]; omega

theorem mem_blk2 (t : Fin cfg2.N) (i : S16384x1024.Idx) :
    i ∈ ((cfg2.win 3).blk t).view.set ↔ ∀ a : Fin 2, win2_3.index t a * S256x1024.size a ≤ (i a).val ∧ (i a).val < win2_3.index t a * S256x1024.size a + S256x1024.size a := by
  show i ∈ ((View.whole main_v18).slice (win2_3.rect t)).set ↔ _
  rw [View.set_slice_whole, Rect.mem_set_unit]
  exact Iff.rfl

theorem cover2 (i : S16384x1024.Idx) :
    ∃ t : Fin cfg2.N, (cfg2.win 3).flush t = true ∧ i ∈ ((cfg2.win 3).blk t).view.set := by
  have hN : cfg2.N = 64 := N_2
  have hi0 : (i 0).val < 16384 := (i 0).isLt
  have hi1 : (i 1).val < 1024 := (i 1).isLt
  let t : Fin cfg2.N := ⟨(i 0).val / 256, by omega⟩
  obtain ⟨-, -, -, -, -, -, e0, e1⟩ := idx_facts2 t
  have ht : t.val = (i 0).val / 256 := rfl
  refine ⟨t, flush2_3 t, ?_⟩
  rw [mem_blk2]
  intro a
  match a with
  | ⟨0, _⟩ => show win2_3.index t (0 : Fin 2) * 256 ≤ (i 0).val ∧ (i 0).val < win2_3.index t (0 : Fin 2) * 256 + 256; omega
  | ⟨1, _⟩ => show win2_3.index t (1 : Fin 2) * 1024 ≤ (i 1).val ∧ (i 1).val < win2_3.index t (1 : Fin 2) * 1024 + 1024; omega

theorem final2 (c : Dev nD) (y : Fin 16384 → Fin 1024 → ℝ) (w : Fin 1024 → Fin 1024 → ℝ) (bias : Fin 1 → Fin 1024 → ℝ)
    (hy : V c main_v14 = up2 y) (hw : V c main_v16 = up2 w) (hb : V c main_v17 = up2 bias) :
    (Hand.dat2 (F := Ideal) V c).arrAt 3 cfg2.N = up2 (fun r e => (∑ d : Fin 1024, y r d * w d e) + bias 0 e) :=
  (Hand.dat2 (F := Ideal) V c).arrAt_eq_of_cover 3 (up2 (affine2 y w bias)) (fun t _ => flushed2_eq V c y w bias hy hw hb t) cover2

end Cert.KernelIdeal.Val

end
-- ==== Proof.Val.Host.lean ====
import proofs.«149348_j7679401525936_1_alg».proof.Proof.Gen.KernelIdeal.Regions
import proofs.«149348_j7679401525936_1_alg».proof.Proof.Consts
import Idealize.ShloMosaic.Lib.IdealHost
import Idealize.ShloMosaic.Lib.ValueLayout
import Idealize.ShloMosaic.Lib.StableHlo.Run

noncomputable section

namespace Cert.KernelIdeal.Val

open Cert.KernelIdeal Cert.KernelIdeal.Gen Cert.Spec Idealize.ShloMosaic Idealize.ShloMosaic.ValueIdx
open Idealize.ShloMosaic.StableHlo (after after_cons after_nil)

theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

-- An array of extended reals is the lift of a real table once it agrees with it at every coordinate pair.
theorem eq_up2 {A B : ℕ} {g : (⟨2, ![A, B]⟩ : Shape).Idx → EReal} {f : Fin A → Fin B → ℝ}
    (h : ∀ p q, g (ix2 p q) = ((f p q : ℝ) : EReal)) : g = up2 f :=
  funext fun j => (congrArg g (eq_ix2 j)).trans (h _ _)

theorem eq_up3 {A B C : ℕ} {g : (⟨3, ![A, B, C]⟩ : Shape).Idx → EReal} {f : Fin A → Fin B → Fin C → ℝ}
    (h : ∀ p q r, g (ix3 p q r) = ((f p q r : ℝ) : EReal)) : g = up3 f :=
  funext fun j => (congrArg g (eq_ix3 j)).trans (h _ _ _)

def wcat (Wq Wk Wv : Fin 1024 → Fin 1024 → ℝ) (n : Fin 3072) (c : Fin 1024) : ℝ :=
  if h1 : n.val < 1024 then Wq ⟨n.val, h1⟩ c * tenth
  else if h2 : n.val < 2048 then Wk ⟨n.val - 1024, by omega⟩ c * tenth
  else Wv ⟨n.val - 2048, by omega⟩ c

theorem scaled_apply (W : Fin 1024 → Fin 1024 → ℝ) (p c : Fin 1024) :
    mulf (up2 W : FVec Ideal S1024x1024 .f32)
      (broadcastInDim S1024x1024 ![] bcast_S_S1024x1024 (constant (F := Ideal) S_ .f32 0x3DCCCCCD#32)) (ix2 p c)
      = ((W p c * tenth : ℝ) : EReal) := by
  rw [mulf_apply, up2_apply, broadcastInDim_scalar_apply, constant_apply, Cert.Consts.ofBits_tenth]
  exact (EReal.coe_mul _ _).symm

-- Row n of the stacked weights lies in the block n falls in, at n less the rows before that block.
theorem stacked_eq (Wq Wk Wv : Fin 1024 → Fin 1024 → ℝ) (a b v : FVec Ideal S1024x1024 .f32)
    (ha : a = up2 Wq) (hb : b = up2 Wk) (hv : v = up2 Wv) :
    truncf .bf16 (transpose S1024x3072 [1, 0]
      (concatenate S3072x1024 0
        [⟨S1024x1024, mulf a (broadcastInDim S1024x1024 ![] bcast_S_S1024x1024 (constant (F := Ideal) S_ .f32 0x3DCCCCCD#32))⟩,
         ⟨S1024x1024, mulf b (broadcastInDim S1024x1024 ![] bcast_S_S1024x1024 (constant (F := Ideal) S_ .f32 0x3DCCCCCD#32))⟩,
         ⟨S1024x1024, v⟩] concatenates_S1024x1024_S1024x1024_S1024x1024_S3072x1024_d0)
      transposes_S3072x1024_S1024x3072_1_0) bitsLt_bf16_f32 = up2 (fun c n => wcat Wq Wk Wv n c) := by
  subst ha hb hv
  refine eq_up2 fun c n => (truncf_apply _ bitsLt_bf16_f32 _).trans ((transpose_ix2_apply _ _ c n).trans ?_)
  have hi : ∀ (p : Fin 1024) (b : Fin 2), b ≠ 0 → (ix2 p c b).val = (ix2 n c b).val :=
    fun p b hb => match b, hb with | ⟨0, _⟩, hb => absurd rfl hb | ⟨1, _⟩, _ => rfl
  unfold wcat
  by_cases h1 : n.val < 1024
  · rw [dif_pos h1]
    exact (concatenate_apply_piece _ _ _ (ix2 n c) 0 (by show (0 : ℕ) < 3; decide) S1024x1024 _ rfl rfl 0 rfl (ix2 (⟨n.val, h1⟩ : Fin 1024) c) (hi _)
      (Nat.zero_add _)).trans (scaled_apply Wq _ c)
  · rw [dif_neg h1]
    by_cases h2 : n.val < 2048
    · rw [dif_pos h2]
      exact (concatenate_apply_piece _ _ _ (ix2 n c) 1 (by show (1 : ℕ) < 3; decide) S1024x1024 _ rfl rfl 1024 rfl (ix2 (⟨n.val - 1024, by omega⟩ : Fin 1024) c) (hi _)
        (by show 1024 + (n.val - 1024) = n.val; omega)).trans (scaled_apply Wk _ c)
    · rw [dif_neg h2]
      exact (concatenate_apply_piece _ _ _ (ix2 n c) 2 (by show (2 : ℕ) < 3; decide) S1024x1024 _ rfl rfl 2048 rfl (ix2 (⟨n.val - 2048, by omega⟩ : Fin 1024) c) (hi _)
        (by show 2048 + (n.val - 2048) = n.val; omega)).trans (up2_apply Wv _ c)

-- Row r of the flattened array is token r mod 2048 of batch r / 2048: the two row-major positions agree.
theorem flatten_apply {α : Type} (g : S8x2048x1024.Idx → α) (r : Fin 16384) (c : Fin 1024) :
    shapeCast S16384x1024 g shapeCasts_S8x2048x1024_S16384x1024 (ix2 r c)
      = g (ix3 (⟨r.val / 2048, by omega⟩ : Fin 8) (⟨r.val % 2048, by omega⟩ : Fin 2048) c) :=
  shapeCast_apply _ _ _ _ (by
    rw [Shape.rowMajor_val_two, Shape.rowMajor_val_three]
    show (r.val / 2048 * 2048 + r.val % 2048) * 1024 + c.val = r.val * 1024 + c.val
    omega)

theorem unflatten_apply {α : Type} {D : ℕ} (g : (⟨2, ![16384, D]⟩ : Shape).Idx → α)
    (h : (⟨2, ![16384, D]⟩ : Shape).ShapeCasts ⟨3, ![8, 2048, D]⟩) (b : Fin 8) (t : Fin 2048) (e : Fin D) :
    shapeCast (⟨3, ![8, 2048, D]⟩ : Shape) g h (ix3 b t e) = g (ix2 (⟨b.val * 2048 + t.val, by omega⟩ : Fin 16384) e) :=
  shapeCast_apply _ _ _ _ (by rw [Shape.rowMajor_val_two, Shape.rowMajor_val_three]; rfl)

-- A third of the columns, read from offset off: the unflattened array at column off + d.
theorem third_apply {α : Type} (g : S16384x3072.Idx → α) (off : ℕ) (hs : S8x2048x3072.Slices ![0, 0, off] S8x2048x1024)
    (b : Fin 8) (t : Fin 2048) (d : Fin 1024) (q : Fin 3072) (hq : q.val = off + d.val) :
    extractStridedSlice S8x2048x1024 ![0, 0, off] (shapeCast S8x2048x3072 g shapeCasts_S16384x3072_S8x2048x3072) hs (ix3 b t d)
      = g (ix2 (⟨b.val * 2048 + t.val, by omega⟩ : Fin 16384) q) :=
  (extractStridedSlice_apply _ _ hs _ (ix3 b t q) fun a => by
    match a with
    | ⟨0, _⟩ => exact (Nat.zero_add _).symm
    | ⟨1, _⟩ => exact (Nat.zero_add _).symm
    | ⟨2, _⟩ => exact hq).trans (unflatten_apply _ _ b t q)

variable (Wp : Valuation τ sig (Elt Ideal))

theorem host0_v0 (x : Fin 8 → Fin 2048 → Fin 1024 → ℝ)
    (hx : (Wp (Proc.devRef .tc main_arg0) : S8x2048x1024.Idx → EReal) = up3 x) :
    (after (hostOps0 (F := Ideal)) Wp (Proc.devRef .tc main_v0) : S16384x1024.Idx → EReal)
      = up2 (fun r c => x ⟨r.val / 2048, by omega⟩ ⟨r.val % 2048, by omega⟩ c) := by
  after_results
  exact eq_up2 fun r c => (flatten_apply _ r c).trans (congrFun hx _)

theorem host0_v7 (Wq Wk Wv : Fin 1024 → Fin 1024 → ℝ)
    (hq : (Wp (Proc.devRef .tc main_arg1) : S1024x1024.Idx → EReal) = up2 Wq)
    (hk : (Wp (Proc.devRef .tc main_arg2) : S1024x1024.Idx → EReal) = up2 Wk)
    (hv : (Wp (Proc.devRef .tc main_arg3) : S1024x1024.Idx → EReal) = up2 Wv) :
    (after (hostOps0 (F := Ideal)) Wp (Proc.devRef .tc main_v7) : S1024x3072.Idx → EReal)
      = up2 (fun c n => wcat Wq Wk Wv n c) := by
  simp only [after_cons, after_nil]
  repeat (first
    | rw [StableHlo.nullary_result] | rw [StableHlo.unary_result] | rw [StableHlo.binary_result] | rw [nary3_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide))
  exact stacked_eq Wq Wk Wv _ _ _ hq hk hv

theorem host1_v10 (P : Fin 16384 → Fin 3072 → ℝ)
    (hP : (Wp (Proc.devRef .tc main_v8) : S16384x3072.Idx → EReal) = up2 P) :
    (after (hostOps1 (F := Ideal)) Wp (Proc.devRef .tc main_v10) : S8x2048x1024.Idx → EReal)
      = up3 (fun b t d => P ⟨b.val * 2048 + t.val, by omega⟩ ⟨d.val, by omega⟩) := by
  after_results
  exact eq_up3 fun b t d => (third_apply _ 0 _ b t d ⟨d.val, by omega⟩ (Nat.zero_add _).symm).trans (congrFun hP _)

theorem host1_v11 (P : Fin 16384 → Fin 3072 → ℝ)
    (hP : (Wp (Proc.devRef .tc main_v8) : S16384x3072.Idx → EReal) = up2 P) :
    (after (hostOps1 (F := Ideal)) Wp (Proc.devRef .tc main_v11) : S8x2048x1024.Idx → EReal)
      = up3 (fun b t d => P ⟨b.val * 2048 + t.val, by omega⟩ ⟨1024 + d.val, by omega⟩) := by
  after_results
  exact eq_up3 fun b t d => (third_apply _ 1024 _ b t d ⟨1024 + d.val, by omega⟩ rfl).trans (congrFun hP _)

theorem host1_v12 (P : Fin 16384 → Fin 3072 → ℝ)
    (hP : (Wp (Proc.devRef .tc main_v8) : S16384x3072.Idx → EReal) = up2 P) :
    (after (hostOps1 (F := Ideal)) Wp (Proc.devRef .tc main_v12) : S8x2048x1024.Idx → EReal)
      = up3 (fun b t d => P ⟨b.val * 2048 + t.val, by omega⟩ ⟨2048 + d.val, by omega⟩) := by
  after_results
  exact eq_up3 fun b t d => (third_apply _ 2048 _ b t d ⟨2048 + d.val, by omega⟩ rfl).trans (congrFun hP _)

theorem host2_v14 (Y : Fin 8 → Fin 2048 → Fin 1024 → ℝ)
    (hY : (Wp (Proc.devRef .tc main_v13) : S8x2048x1024.Idx → EReal) = up3 Y) :
    (after (hostOps2 (F := Ideal)) Wp (Proc.devRef .tc main_v14) : S16384x1024.Idx → EReal)
      = up2 (fun r d => Y ⟨r.val / 2048, by omega⟩ ⟨r.val % 2048, by omega⟩ d) := by
  after_results
  exact eq_up2 fun r d => (flatten_apply _ r d).trans (congrFun hY _)

theorem host2_v16 (Wo : Fin 1024 → Fin 1024 → ℝ)
    (hWo : (Wp (Proc.devRef .tc main_arg4) : S1024x1024.Idx → EReal) = up2 Wo) :
    (after (hostOps2 (F := Ideal)) Wp (Proc.devRef .tc main_v16) : S1024x1024.Idx → EReal)
      = up2 (fun d e => Wo e d) := by
  after_results
  exact eq_up2 fun d e => (transpose_ix2_apply _ _ d e).trans (congrFun hWo _)

theorem host2_v17 (bo : Fin 1024 → ℝ)
    (hbo : (Wp (Proc.devRef .tc main_arg5) : S1024.Idx → EReal) = up1 bo) :
    (after (hostOps2 (F := Ideal)) Wp (Proc.devRef .tc main_v17) : S1x1024.Idx → EReal)
      = up2 (fun (_ : Fin 1) e => bo e) := by
  after_results
  exact eq_up2 fun i e => (shapeCast_a_1a_apply _ _ i e).trans (congrFun hbo _)

theorem host3_v19 (Z : Fin 16384 → Fin 1024 → ℝ)
    (hZ : (Wp (Proc.devRef .tc main_v18) : S16384x1024.Idx → EReal) = up2 Z) :
    (after (hostOps3 (F := Ideal)) Wp (Proc.devRef .tc main_v19) : S8x2048x1024.Idx → EReal)
      = up3 (fun b t e => Z ⟨b.val * 2048 + t.val, by omega⟩ e) := by
  after_results
  exact eq_up3 fun b t e => (unflatten_apply _ _ b t e).trans (congrFun hZ _)

end Cert.KernelIdeal.Val

end
-- ==== Proof.Val.KVal.lean ====
import proofs.«149348_j7679401525936_1_alg».proof.Proof.KI.Run
import proofs.«149348_j7679401525936_1_alg».proof.Proof.Spec
import proofs.«149348_j7679401525936_1_alg».proof.Proof.Consts
import proofs.«149348_j7679401525936_1_alg».proof.Proof.Val.Alg
import proofs.«149348_j7679401525936_1_alg».proof.Proof.Val.Val0
import proofs.«149348_j7679401525936_1_alg».proof.Proof.Val.Val1Final
import proofs.«149348_j7679401525936_1_alg».proof.Proof.Val.Val2
import proofs.«149348_j7679401525936_1_alg».proof.Proof.Val.Host

noncomputable section

namespace Cert.KernelIdeal.Val

open Cert.KernelIdeal Cert.KernelIdeal.Gen Cert.Spec Idealize.ShloMosaic Idealize.ShloMosaic.ValueIdx
open Idealize.ShloMosaic.TcCoe

def flat {D : Nat} (X : Fin 8 → Fin 2048 → Fin D → ℝ) : Fin 16384 → Fin D → ℝ :=
  fun r c => X ⟨r.val / 2048, by omega⟩ ⟨r.val % 2048, by omega⟩ c
def unflat {D : Nat} (Z : Fin 16384 → Fin D → ℝ) : Fin 8 → Fin 2048 → Fin D → ℝ :=
  fun b t e => Z ⟨b.val * 2048 + t.val, by omega⟩ e

theorem unflat_flat {D : Nat} (X : Fin 8 → Fin 2048 → Fin D → ℝ) : unflat (flat X) = X := by
  funext b t e
  have hb := b.isLt; have ht := t.isLt
  show X ⟨(b.val * 2048 + t.val) / 2048, _⟩ ⟨(b.val * 2048 + t.val) % 2048, _⟩ e = X b t e
  congr 1 <;> apply Fin.ext
  · show (b.val * 2048 + t.val) / 2048 = b.val; omega
  · show (b.val * 2048 + t.val) % 2048 = t.val; omega

theorem flat_row {D : Nat} (X : Fin 8 → Fin 2048 → Fin D → ℝ) (b : Fin 8) (t : Fin 2048) (h : b.val * 2048 + t.val < 16384) (c : Fin D) :
    flat X ⟨b.val * 2048 + t.val, h⟩ c = X b t c := congrFun (congrFun (congrFun (unflat_flat X) b) t) c

def wT (Wq Wk Wv : Fin 1024 → Fin 1024 → ℝ) : Fin 1024 → Fin 3072 → ℝ := fun c n => wcat Wq Wk Wv n c
def qkv (x : Fin 8 → Fin 2048 → Fin 1024 → ℝ) (Wq Wk Wv : Fin 1024 → Fin 1024 → ℝ) : Fin 16384 → Fin 3072 → ℝ :=
  fun r n => ∑ k : Fin 1024, flat x r k * wT Wq Wk Wv k n
def colsQ (P : Fin 16384 → Fin 3072 → ℝ) : Fin 8 → Fin 2048 → Fin 1024 → ℝ :=
  fun b t d => P ⟨b.val * 2048 + t.val, by omega⟩ ⟨d.val, by omega⟩
def colsK (P : Fin 16384 → Fin 3072 → ℝ) : Fin 8 → Fin 2048 → Fin 1024 → ℝ :=
  fun b t d => P ⟨b.val * 2048 + t.val, by omega⟩ ⟨1024 + d.val, by omega⟩
def colsV (P : Fin 16384 → Fin 3072 → ℝ) : Fin 8 → Fin 2048 → Fin 1024 → ℝ :=
  fun b t d => P ⟨b.val * 2048 + t.val, by omega⟩ ⟨2048 + d.val, by omega⟩

theorem wcat_q (Wq Wk Wv : Fin 1024 → Fin 1024 → ℝ) (d c : Fin 1024) (h : d.val < 3072) :
    wcat Wq Wk Wv ⟨d.val, h⟩ c = Wq d c * tenth := by
  unfold wcat
  rw [dif_pos (show d.val < 1024 from d.isLt)]
theorem wcat_k (Wq Wk Wv : Fin 1024 → Fin 1024 → ℝ) (d c : Fin 1024) (h : 1024 + d.val < 3072) :
    wcat Wq Wk Wv ⟨1024 + d.val, h⟩ c = Wk d c * tenth := by
  have hd := d.isLt
  unfold wcat
  rw [dif_neg (show ¬ (1024 + d.val) < 1024 by omega), dif_pos (show (1024 + d.val) < 2048 by omega)]
  congr 2; apply Fin.ext; show 1024 + d.val - 1024 = d.val; omega
theorem wcat_v (Wq Wk Wv : Fin 1024 → Fin 1024 → ℝ) (d c : Fin 1024) (h : 2048 + d.val < 3072) :
    wcat Wq Wk Wv ⟨2048 + d.val, h⟩ c = Wv d c := by
  have hd := d.isLt
  unfold wcat
  rw [dif_neg (show ¬ (2048 + d.val) < 1024 by omega), dif_neg (show ¬ (2048 + d.val) < 2048 by omega)]
  congr 1; apply Fin.ext; show 2048 + d.val - 2048 = d.val; omega

theorem colsQ_qkv (x : Fin 8 → Fin 2048 → Fin 1024 → ℝ) (Wq Wk Wv : Fin 1024 → Fin 1024 → ℝ) :
    colsQ (qkv x Wq Wk Wv) = projScaledW x Wq := by
  funext b t d
  show ∑ k : Fin 1024, flat x ⟨b.val * 2048 + t.val, _⟩ k * wcat Wq Wk Wv ⟨d.val, _⟩ k = ∑ c : Fin 1024, x b t c * (Wq d c * tenth)
  refine Finset.sum_congr rfl fun k _ => ?_
  rw [flat_row, wcat_q]
theorem colsK_qkv (x : Fin 8 → Fin 2048 → Fin 1024 → ℝ) (Wq Wk Wv : Fin 1024 → Fin 1024 → ℝ) :
    colsK (qkv x Wq Wk Wv) = projScaledW x Wk := by
  funext b t d
  show ∑ k : Fin 1024, flat x ⟨b.val * 2048 + t.val, _⟩ k * wcat Wq Wk Wv ⟨1024 + d.val, _⟩ k = ∑ c : Fin 1024, x b t c * (Wk d c * tenth)
  refine Finset.sum_congr rfl fun k _ => ?_
  rw [flat_row, wcat_k]
theorem colsV_qkv (x : Fin 8 → Fin 2048 → Fin 1024 → ℝ) (Wq Wk Wv : Fin 1024 → Fin 1024 → ℝ) :
    colsV (qkv x Wq Wk Wv) = proj x Wv := by
  funext b t d
  show ∑ k : Fin 1024, flat x ⟨b.val * 2048 + t.val, _⟩ k * wcat Wq Wk Wv ⟨2048 + d.val, _⟩ k = ∑ c : Fin 1024, x b t c * Wv d c
  refine Finset.sum_congr rfl fun k _ => ?_
  rw [flat_row, wcat_v]

def woT (Wo : Fin 1024 → Fin 1024 → ℝ) : Fin 1024 → Fin 1024 → ℝ := fun d e => Wo e d
def bRow (bo : Fin 1024 → ℝ) : Fin 1 → Fin 1024 → ℝ := fun _ e => bo e
def outFlat (Wo : Fin 1024 → Fin 1024 → ℝ) (bo : Fin 1024 → ℝ) (Y : Fin 8 → Fin 2048 → Fin 1024 → ℝ) : Fin 16384 → Fin 1024 → ℝ :=
  fun r e => (∑ d : Fin 1024, flat Y r d * woT Wo d e) + bRow bo 0 e
theorem unflat_outFlat (Wo : Fin 1024 → Fin 1024 → ℝ) (bo : Fin 1024 → ℝ) (Y : Fin 8 → Fin 2048 → Fin 1024 → ℝ) :
    unflat (outFlat Wo bo Y) = outProj Wo bo Y := by
  funext b t e
  show (∑ d : Fin 1024, flat Y ⟨b.val * 2048 + t.val, _⟩ d * Wo e d) + bo e = (∑ d : Fin 1024, Y b t d * Wo e d) + bo e
  congr 1
  refine Finset.sum_congr rfl fun d _ => ?_
  rw [flat_row]

theorem div_real (w D : ℝ) (hD : D ≠ 0) : Ideal.div ((w : ℝ) : EReal) ((D : ℝ) : EReal) = ((w / D : ℝ) : EReal) := by
  rw [Ideal.div_coe hD, ← EReal.coe_mul, mul_one_div]

section Walk

variable (m : (ℓ : Loc nD τ sig) → Buf (Elt Ideal) ℓ) (ρ : Dev nD → PrngReg) (c : Dev nD)
variable (x : Fin 8 → Fin 2048 → Fin 1024 → ℝ) (Wq Wk Wv Wo : Fin 1024 → Fin 1024 → ℝ) (bo : Fin 1024 → ℝ)

theorem V1_v0 (h0 : m ((c : Thread nD τ).loc main_arg0) = up3 x) :
    Hand.V1 (F := Ideal) m ρ c main_v0 = up2 (flat x) :=
  host0_v0 (Hand.W0 (F := Ideal) m ρ c) x h0
theorem V1_v7 (h1 : m ((c : Thread nD τ).loc main_arg1) = up2 Wq) (h2 : m ((c : Thread nD τ).loc main_arg2) = up2 Wk)
    (h3 : m ((c : Thread nD τ).loc main_arg3) = up2 Wv) :
    Hand.V1 (F := Ideal) m ρ c main_v7 = up2 (wT Wq Wk Wv) :=
  host0_v7 (Hand.W0 (F := Ideal) m ρ c) Wq Wk Wv h1 h2 h3

theorem W2_v8 (h0 : m ((c : Thread nD τ).loc main_arg0) = up3 x)
    (h1 : m ((c : Thread nD τ).loc main_arg1) = up2 Wq) (h2 : m ((c : Thread nD τ).loc main_arg2) = up2 Wk)
    (h3 : m ((c : Thread nD τ).loc main_arg3) = up2 Wv) :
    (Hand.W2 (F := Ideal) m ρ c (Proc.devRef .tc main_v8) : S16384x3072.Idx → EReal) = up2 (qkv x Wq Wk Wv) :=
  (Hand.W2_arr (F := Ideal) m ρ c 2).trans
    (final0 (Hand.V1 (F := Ideal) m ρ) c (flat x) (wT Wq Wk Wv) (V1_v0 m ρ c x h0) (V1_v7 m ρ c Wq Wk Wv h1 h2 h3))

theorem V3_v10 (h0 : m ((c : Thread nD τ).loc main_arg0) = up3 x)
    (h1 : m ((c : Thread nD τ).loc main_arg1) = up2 Wq) (h2 : m ((c : Thread nD τ).loc main_arg2) = up2 Wk)
    (h3 : m ((c : Thread nD τ).loc main_arg3) = up2 Wv) :
    Hand.V3 (F := Ideal) m ρ c main_v10 = up3 (projScaledW x Wq) :=
  (host1_v10 (Hand.W2 (F := Ideal) m ρ c) (qkv x Wq Wk Wv) (W2_v8 m ρ c x Wq Wk Wv h0 h1 h2 h3)).trans
    (congrArg up3 (colsQ_qkv x Wq Wk Wv))
theorem V3_v11 (h0 : m ((c : Thread nD τ).loc main_arg0) = up3 x)
    (h1 : m ((c : Thread nD τ).loc main_arg1) = up2 Wq) (h2 : m ((c : Thread nD τ).loc main_arg2) = up2 Wk)
    (h3 : m ((c : Thread nD τ).loc main_arg3) = up2 Wv) :
    Hand.V3 (F := Ideal) m ρ c main_v11 = up3 (projScaledW x Wk) :=
  (host1_v11 (Hand.W2 (F := Ideal) m ρ c) (qkv x Wq Wk Wv) (W2_v8 m ρ c x Wq Wk Wv h0 h1 h2 h3)).trans
    (congrArg up3 (colsK_qkv x Wq Wk Wv))
theorem V3_v12 (h0 : m ((c : Thread nD τ).loc main_arg0) = up3 x)
    (h1 : m ((c : Thread nD τ).loc main_arg1) = up2 Wq) (h2 : m ((c : Thread nD τ).loc main_arg2) = up2 Wk)
    (h3 : m ((c : Thread nD τ).loc main_arg3) = up2 Wv) :
    Hand.V3 (F := Ideal) m ρ c main_v12 = up3 (proj x Wv) :=
  (host1_v12 (Hand.W2 (F := Ideal) m ρ c) (qkv x Wq Wk Wv) (W2_v8 m ρ c x Wq Wk Wv h0 h1 h2 h3)).trans
    (congrArg up3 (colsV_qkv x Wq Wk Wv))

theorem W4_v13 (h0 : m ((c : Thread nD τ).loc main_arg0) = up3 x)
    (h1 : m ((c : Thread nD τ).loc main_arg1) = up2 Wq) (h2 : m ((c : Thread nD τ).loc main_arg2) = up2 Wk)
    (h3 : m ((c : Thread nD τ).loc main_arg3) = up2 Wv)
    (hD : ∀ b i, denom (projScaledW x Wq) (projScaledW x Wk) b i ≠ 0) :
    (Hand.W4 (F := Ideal) m ρ c (Proc.devRef .tc main_v13) : S8x2048x1024.Idx → EReal)
      = up3 (attendK (projScaledW x Wq) (projScaledW x Wk) (proj x Wv)) := by
  refine (Hand.W4_arr (F := Ideal) m ρ c 3).trans ?_
  rw [final1 (Hand.V3 (F := Ideal) m ρ) c _ _ _ (V3_v10 m ρ c x Wq Wk Wv h0 h1 h2 h3) (V3_v11 m ρ c x Wq Wk Wv h0 h1 h2 h3) (V3_v12 m ρ c x Wq Wk Wv h0 h1 h2 h3)]
  funext j
  exact div_real _ _ (hD (j 0) (j 1))

theorem V5_v14 (h0 : m ((c : Thread nD τ).loc main_arg0) = up3 x)
    (h1 : m ((c : Thread nD τ).loc main_arg1) = up2 Wq) (h2 : m ((c : Thread nD τ).loc main_arg2) = up2 Wk)
    (h3 : m ((c : Thread nD τ).loc main_arg3) = up2 Wv)
    (hD : ∀ b i, denom (projScaledW x Wq) (projScaledW x Wk) b i ≠ 0) :
    Hand.V5 (F := Ideal) m ρ c main_v14 = up2 (flat (attendK (projScaledW x Wq) (projScaledW x Wk) (proj x Wv))) :=
  host2_v14 (Hand.W4 (F := Ideal) m ρ c) _ (W4_v13 m ρ c x Wq Wk Wv h0 h1 h2 h3 hD)
theorem V5_v16 (h4 : m ((c : Thread nD τ).loc main_arg4) = up2 Wo) :
    Hand.V5 (F := Ideal) m ρ c main_v16 = up2 (woT Wo) :=
  host2_v16 (Hand.W4 (F := Ideal) m ρ c) Wo ((Hand.W4_arg (F := Ideal) m ρ c (b := main_arg4) (by decide)).trans h4)
theorem V5_v17 (h5 : m ((c : Thread nD τ).loc main_arg5) = up1 bo) :
    Hand.V5 (F := Ideal) m ρ c main_v17 = up2 (bRow bo) :=
  host2_v17 (Hand.W4 (F := Ideal) m ρ c) bo ((Hand.W4_arg (F := Ideal) m ρ c (b := main_arg5) (by decide)).trans h5)

theorem W6_v18 (h0 : m ((c : Thread nD τ).loc main_arg0) = up3 x)
    (h1 : m ((c : Thread nD τ).loc main_arg1) = up2 Wq) (h2 : m ((c : Thread nD τ).loc main_arg2) = up2 Wk)
    (h3 : m ((c : Thread nD τ).loc main_arg3) = up2 Wv)
    (h4 : m ((c : Thread nD τ).loc main_arg4) = up2 Wo) (h5 : m ((c : Thread nD τ).loc main_arg5) = up1 bo)
    (hD : ∀ b i, denom (projScaledW x Wq) (projScaledW x Wk) b i ≠ 0) :
    (Hand.W6 (F := Ideal) m ρ c (Proc.devRef .tc main_v18) : S16384x1024.Idx → EReal)
      = up2 (outFlat Wo bo (attendK (projScaledW x Wq) (projScaledW x Wk) (proj x Wv))) :=
  (Hand.W6_arr (F := Ideal) m ρ c 3).trans
    (final2 (Hand.V5 (F := Ideal) m ρ) c _ (woT Wo) (bRow bo) (V5_v14 m ρ c x Wq Wk Wv h0 h1 h2 h3 hD) (V5_v16 m ρ c Wo h4) (V5_v17 m ρ c bo h5))

theorem kernel_value (h0 : m ((c : Thread nD τ).loc main_arg0) = up3 x)
    (h1 : m ((c : Thread nD τ).loc main_arg1) = up2 Wq) (h2 : m ((c : Thread nD τ).loc main_arg2) = up2 Wk)
    (h3 : m ((c : Thread nD τ).loc main_arg3) = up2 Wv)
    (h4 : m ((c : Thread nD τ).loc main_arg4) = up2 Wo) (h5 : m ((c : Thread nD τ).loc main_arg5) = up1 bo)
    (hD : ∀ b i, denom (projScaledW x Wq) (projScaledW x Wk) b i ≠ 0) :
    Hand.W7 (F := Ideal) m ρ c (Proc.devRef .tc main_v19) = up3 (kernelOut x Wq Wk Wv Wo bo) :=
  (host3_v19 (Hand.W6 (F := Ideal) m ρ c) _ (W6_v18 m ρ c x Wq Wk Wv Wo bo h0 h1 h2 h3 h4 h5 hD)).trans
    (congrArg up3 (unflat_outFlat Wo bo _))

end Walk

end Cert.KernelIdeal.Val

end
-- ==== Proof.RefRun.lean ====
import proofs.«149348_j7679401525936_1_alg».proof.Proof.Gen.ReferenceIdeal.Run
import proofs.«149348_j7679401525936_1_alg».proof.Proof.Gen.ReferenceIdeal.Read
-- ==== Proof.Val.RefVal.lean ====
import proofs.«149348_j7679401525936_1_alg».proof.Proof.RefRun
import proofs.«149348_j7679401525936_1_alg».proof.Proof.Spec
import proofs.«149348_j7679401525936_1_alg».proof.Proof.Consts
import Idealize.ShloMosaic.Lib.StableHlo.Predicate

noncomputable section

namespace Cert.ReferenceIdeal.RefValue

open Cert.ReferenceIdeal Cert.ReferenceIdeal.Gen Cert.ReferenceIdeal.Read Cert.Spec
open Idealize.ShloMosaic Idealize.ShloMosaic.ValueIdx

theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

section Proj

variable (x : Fin 8 → Fin 2048 → Fin 1024 → ℝ) (W : Fin 1024 → Fin 1024 → ℝ)

theorem v0_up : val_main_v0 (F := Ideal) (up3 x) (up2 W) = up3 (proj x W) := by
  funext j
  obtain ⟨b, t, d, rfl⟩ : ∃ (b : Fin 8) (t : Fin 2048) (d : Fin 1024), j = ix3 b t d := ⟨j 0, j 1, j 2, eq_ix3 j⟩
  rw [val_main_v0_apply]
  show ∑ k : Fin 1024, ((x b t k : ℝ) : EReal) * ((W d k : ℝ) : EReal) = ((proj x W b t d : ℝ) : EReal)
  simp only [← EReal.coe_mul]
  rw [coe_sum]
  rfl

theorem v3_up : val_main_v3 (F := Ideal) (up3 x) (up2 W) = up3 (proj x W) := v0_up x W

theorem v6_up : val_main_v6 (F := Ideal) (up3 x) (up2 W) = up3 (proj x W) := v0_up x W

theorem v1_apply (i : S8x2048x1024.Idx) : val_main_v1 (F := Ideal) i = ((tenth : ℝ) : EReal) := by
  rw [val_main_v1_apply, val_main_cst_apply]
  exact Cert.Consts.ofBits_tenth

theorem v4_apply (i : S8x2048x1024.Idx) : val_main_v4 (F := Ideal) i = ((tenth : ℝ) : EReal) := by
  rw [val_main_v4_apply, val_main_cst_0_apply]
  exact Cert.Consts.ofBits_tenth

theorem v2_up : val_main_v2 (F := Ideal) (up3 x) (up2 W) = up3 (projThenScale x W) := by
  funext j
  obtain ⟨b, t, d, rfl⟩ : ∃ (b : Fin 8) (t : Fin 2048) (d : Fin 1024), j = ix3 b t d := ⟨j 0, j 1, j 2, eq_ix3 j⟩
  rw [val_main_v2_apply, v0_up, v1_apply]
  show ((proj x W b t d : ℝ) : EReal) * ((tenth : ℝ) : EReal) = ((projThenScale x W b t d : ℝ) : EReal)
  rw [← EReal.coe_mul]
  rfl

theorem v5_up : val_main_v5 (F := Ideal) (up3 x) (up2 W) = up3 (projThenScale x W) := by
  funext j
  obtain ⟨b, t, d, rfl⟩ : ∃ (b : Fin 8) (t : Fin 2048) (d : Fin 1024), j = ix3 b t d := ⟨j 0, j 1, j 2, eq_ix3 j⟩
  rw [val_main_v5_apply, v3_up, v4_apply]
  show ((proj x W b t d : ℝ) : EReal) * ((tenth : ℝ) : EReal) = ((projThenScale x W b t d : ℝ) : EReal)
  rw [← EReal.coe_mul]
  rfl

end Proj

theorem toNat_pos (i : Fin 2048) : (BitVec.ofNat 32 i.val).toNat = i.val := by
  rw [BitVec.toNat_ofNat]
  exact Nat.mod_eq_of_lt (by have := i.isLt; omega)

theorem v14_apply (i j : Fin 2048) :
    val_main_v14 (F := Ideal) (ix2 i j) = (((if j ≤ i then 1 else 0 : ℝ)) : EReal) := by
  rw [val_main_v14_apply, val_main_v13_apply, val_main_v11_apply, val_main_v12_apply, val_main_v9_apply,
    val_main_v10_apply, val_main_v8_apply, val_main_v8_apply]
  show (((IntOp.cmpi .sge (BitVec.ofNat 32 i.val) (BitVec.ofNat 32 j.val)).toNat : ℝ) : EReal) = _
  have hi := toNat_pos i
  have hj := toNat_pos j
  have hlt : ∀ k : Fin 2048, (BitVec.ofNat 32 k.val).toNat < 2 ^ 31 := fun k => by
    rw [toNat_pos]; have := k.isLt; omega
  by_cases h : j ≤ i
  · have e : IntOp.cmpi .sge (BitVec.ofNat 32 i.val) (BitVec.ofNat 32 j.val) = 1#1 :=
      (StableHlo.Predicate.sge_iff_toNat (hlt i) (hlt j)).2 (by rw [hi, hj]; exact h)
    rw [e, if_pos h]
    norm_num
  · have e : IntOp.cmpi .sge (BitVec.ofNat 32 i.val) (BitVec.ofNat 32 j.val) = 0#1 :=
      eq_zero_of_ne_one fun h1 => h (by
        have := (StableHlo.Predicate.sge_iff_toNat (hlt i) (hlt j)).1 h1
        rw [hi, hj] at this
        exact this)
    rw [e, if_neg h]
    norm_num

theorem v16_apply (b : Fin 8) (i j : Fin 2048) :
    val_main_v16 (F := Ideal) (ix3 b i j) = (((if j ≤ i then 1 else 0 : ℝ)) : EReal) := by
  rw [val_main_v16_apply, val_main_v15_apply]
  have e : idx_main_v15 (idx_main_v16 (ix3 b i j)) = ix2 i j :=
    funext fun a => by match a with | ⟨0, _⟩ => rfl | ⟨1, _⟩ => rfl
  rw [e, v14_apply]

theorem v19_apply (i j : Fin 2048) :
    val_main_v19 (F := Ideal) (ix2 i j) = ((1 - (if j ≤ i then 1 else 0) : ℝ) : EReal) := by
  rw [val_main_v19_apply, val_main_v18_apply, val_main_cst_1_apply, v14_apply]
  show Ideal.ofBits .f32 0x3F800000#32 - (((if j ≤ i then 1 else 0 : ℝ)) : EReal) = _
  rw [Cert.Consts.ofBits_one, ← EReal.coe_sub]

theorem v21_apply (b : Fin 8) (i j : Fin 2048) :
    val_main_v21 (F := Ideal) (ix3 b i j) = ((1 - (if j ≤ i then 1 else 0) : ℝ) : EReal) := by
  rw [val_main_v21_apply, val_main_v20_apply]
  have e : idx_main_v20 (idx_main_v21 (ix3 b i j)) = ix2 i j :=
    funext fun a => by match a with | ⟨0, _⟩ => rfl | ⟨1, _⟩ => rfl
  rw [e, v19_apply]

section Scores

variable (x : Fin 8 → Fin 2048 → Fin 1024 → ℝ) (Wq Wk : Fin 1024 → Fin 1024 → ℝ)

theorem v7_up : val_main_v7 (F := Ideal) (up3 x) (up2 Wq) (up2 Wk)
    = up3 (score (projThenScale x Wq) (projThenScale x Wk)) := by
  funext j
  obtain ⟨b, i, c, rfl⟩ : ∃ (b : Fin 8) (i : Fin 2048) (c : Fin 2048), j = ix3 b i c := ⟨j 0, j 1, j 2, eq_ix3 j⟩
  rw [val_main_v7_apply, v2_up, v5_up]
  show ∑ k : Fin 1024, ((projThenScale x Wq b i k : ℝ) : EReal) * ((projThenScale x Wk b c k : ℝ) : EReal)
    = ((score (projThenScale x Wq) (projThenScale x Wk) b i c : ℝ) : EReal)
  simp only [← EReal.coe_mul]
  rw [coe_sum]
  rfl

theorem v22_up : val_main_v22 (F := Ideal) (up3 x) (up2 Wq) (up2 Wk)
    = up3 (masked (projThenScale x Wq) (projThenScale x Wk)) := by
  funext j
  obtain ⟨b, i, c, rfl⟩ : ∃ (b : Fin 8) (i : Fin 2048) (c : Fin 2048), j = ix3 b i c := ⟨j 0, j 1, j 2, eq_ix3 j⟩
  rw [val_main_v22_apply, val_main_v17_apply, v7_up, v16_apply, v21_apply]
  show ((score (projThenScale x Wq) (projThenScale x Wk) b i c : ℝ) : EReal) * (((if c ≤ i then 1 else 0 : ℝ)) : EReal)
      - ((1 - (if c ≤ i then 1 else 0) : ℝ) : EReal)
    = ((masked (projThenScale x Wq) (projThenScale x Wk) b i c : ℝ) : EReal)
  rw [← EReal.coe_mul, ← EReal.coe_sub]
  refine congrArg _ ?_
  unfold masked
  split_ifs <;> ring

theorem v23_apply (b : Fin 8) (i : Fin 2048) :
    val_main_v23 (F := Ideal) (up3 x) (up2 Wq) (up2 Wk) (ix2 b i)
      = ((rowSum (projThenScale x Wq) (projThenScale x Wk) b i : ℝ) : EReal) := by
  rw [val_main_v23_apply, val_main_cst_2_apply, v22_up]
  show Ideal.ofBits .f32 0x00000000#32
      + ∑ k : Fin 2048, ((masked (projThenScale x Wq) (projThenScale x Wk) b i k : ℝ) : EReal) = _
  rw [Cert.Consts.ofBits_zero, coe_sum, ← EReal.coe_add, zero_add]
  rfl

theorem v26_apply (b : Fin 8) (i : Fin 2048) (z : Fin 1) :
    val_main_v26 (F := Ideal) (up3 x) (up2 Wq) (up2 Wk) (ix3 b i z)
      = ((denom (projThenScale x Wq) (projThenScale x Wk) b i : ℝ) : EReal) := by
  rw [val_main_v26_apply, val_main_v24_apply, val_main_v25_apply, val_main_cst_3_apply]
  have e : idx_main_v24 (ix3 b i z) = ix2 b i :=
    funext fun a => by match a with | ⟨0, _⟩ => rfl | ⟨1, _⟩ => rfl
  rw [e, v23_apply]
  show ((rowSum (projThenScale x Wq) (projThenScale x Wk) b i : ℝ) : EReal) + Ideal.ofBits .f32 0x3727C5AC#32 = _
  rw [Cert.Consts.ofBits_eps, ← EReal.coe_add]
  rfl

theorem v27_apply (b : Fin 8) (i c : Fin 2048) :
    val_main_v27 (F := Ideal) (up3 x) (up2 Wq) (up2 Wk) (ix3 b i c)
      = ((denom (projThenScale x Wq) (projThenScale x Wk) b i : ℝ) : EReal) := by
  rw [val_main_v27_apply]
  have e : idx_main_v27 (ix3 b i c) = ix3 b i (0 : Fin 1) :=
    funext fun a => by match a with | ⟨0, _⟩ => rfl | ⟨1, _⟩ => rfl | ⟨2, _⟩ => rfl
  rw [e, v26_apply]

end Scores

section Attend

variable (x : Fin 8 → Fin 2048 → Fin 1024 → ℝ) (Wq Wk Wv Wo : Fin 1024 → Fin 1024 → ℝ) (bo : Fin 1024 → ℝ)

theorem v28_up (hD : ∀ b i, denom (projThenScale x Wq) (projThenScale x Wk) b i ≠ 0) :
    val_main_v28 (F := Ideal) (up3 x) (up2 Wq) (up2 Wk)
    = up3 (fun b i c => masked (projThenScale x Wq) (projThenScale x Wk) b i c
        / denom (projThenScale x Wq) (projThenScale x Wk) b i) := by
  funext j
  obtain ⟨b, i, c, rfl⟩ : ∃ (b : Fin 8) (i : Fin 2048) (c : Fin 2048), j = ix3 b i c := ⟨j 0, j 1, j 2, eq_ix3 j⟩
  rw [val_main_v28_apply, v22_up, v27_apply]
  show Ideal.div ((masked (projThenScale x Wq) (projThenScale x Wk) b i c : ℝ) : EReal)
      ((denom (projThenScale x Wq) (projThenScale x Wk) b i : ℝ) : EReal)
    = ((masked (projThenScale x Wq) (projThenScale x Wk) b i c
        / denom (projThenScale x Wq) (projThenScale x Wk) b i : ℝ) : EReal)
  rw [Ideal.div_coe (hD b i), ← EReal.coe_mul, mul_one_div]

theorem v29_up (hD : ∀ b i, denom (projThenScale x Wq) (projThenScale x Wk) b i ≠ 0) :
    val_main_v29 (F := Ideal) (up3 x) (up2 Wq) (up2 Wk) (up2 Wv)
    = up3 (attendR (projThenScale x Wq) (projThenScale x Wk) (proj x Wv)) := by
  funext j
  obtain ⟨b, i, d, rfl⟩ : ∃ (b : Fin 8) (i : Fin 2048) (d : Fin 1024), j = ix3 b i d := ⟨j 0, j 1, j 2, eq_ix3 j⟩
  rw [val_main_v29_apply, v28_up x Wq Wk hD, v6_up]
  show ∑ k : Fin 2048, ((masked (projThenScale x Wq) (projThenScale x Wk) b i k
        / denom (projThenScale x Wq) (projThenScale x Wk) b i : ℝ) : EReal) * ((proj x Wv b k d : ℝ) : EReal)
    = ((attendR (projThenScale x Wq) (projThenScale x Wk) (proj x Wv) b i d : ℝ) : EReal)
  simp only [← EReal.coe_mul]
  rw [coe_sum]
  rfl

theorem v32_apply (b : Fin 8) (i : Fin 2048) (e : Fin 1024) :
    val_main_v32 (F := Ideal) (up1 bo) (ix3 b i e) = ((bo e : ℝ) : EReal) := by
  rw [val_main_v32_apply, val_main_v31_apply]
  rfl

theorem ref_value (hD : ∀ b i, denom (projThenScale x Wq) (projThenScale x Wk) b i ≠ 0) :
    val_main_v33 (F := Ideal) (up3 x) (up2 Wq) (up2 Wk) (up2 Wv) (up2 Wo) (up1 bo)
    = up3 (referenceOut x Wq Wk Wv Wo bo) := by
  funext j
  obtain ⟨b, i, e, rfl⟩ : ∃ (b : Fin 8) (i : Fin 2048) (e : Fin 1024), j = ix3 b i e := ⟨j 0, j 1, j 2, eq_ix3 j⟩
  rw [val_main_v33_apply, val_main_v30_apply, v29_up x Wq Wk Wv hD, v32_apply]
  show (∑ k : Fin 1024, ((attendR (projThenScale x Wq) (projThenScale x Wk) (proj x Wv) b i k : ℝ) : EReal)
        * ((Wo e k : ℝ) : EReal)) + ((bo e : ℝ) : EReal)
    = ((referenceOut x Wq Wk Wv Wo bo b i e : ℝ) : EReal)
  simp only [← EReal.coe_mul]
  rw [coe_sum, ← EReal.coe_add]
  rfl

end Attend

end Cert.ReferenceIdeal.RefValue

end
-- ==== Proof.Val.PreDec.lean ====
import proofs.«149348_j7679401525936_1_alg».proof.Proof.Val.RefVal
import proofs.«149348_j7679401525936_1_alg».proof.Proof.Gen.Pre_finite_inputs
import Idealize.ShloMosaic.Lib.ReduceAll

noncomputable section

namespace Cert.ReferenceIdeal.RefValue

open Cert.Spec Idealize.ShloMosaic Idealize.ShloMosaic.ValueIdx

instance subsingleton_scalar_idx : Subsingleton Cert.Pre_finite_inputs.S_.Idx :=
  ⟨fun a b => funext fun d => d.elim0⟩

section Split

variable {F : FTy → Type} [FloatOps F]

abbrev FiniteAll {s : Shape} (hb : Cert.Pre_finite_inputs.S_.BroadcastsInDim s ![]) (a : FVec F s .f32) : Prop :=
  ∀ i, cmpf .olt (Host.absf a)
    (broadcastInDim s ![] hb (constant (F := F) Cert.Pre_finite_inputs.S_ .f32 0x7F800000#32)) i = 1#1

abbrev NonzeroAll (a : FVec F Cert.Pre_finite_inputs.S8x2048x1 .f32) : Prop :=
  ∀ i, cmpf .une a
    (broadcastInDim Cert.Pre_finite_inputs.S8x2048x1 ![] Cert.Pre_finite_inputs.Facts.bcast_S_S8x2048x1
      (constant (F := F) Cert.Pre_finite_inputs.S_ .f32 0x00000000#32)) i = 1#1

theorem fn_split (a0 : FVec F Cert.Pre_finite_inputs.S8x2048x1024 .f32)
    (a1 a2 a3 a4 : FVec F Cert.Pre_finite_inputs.S1024x1024 .f32) (a5 : FVec F Cert.Pre_finite_inputs.S1024 .f32)
    (h : Cert.Pre_finite_inputs.fn (F := F) a0 a1 a2 a3 a4 a5 = fun _ => 1#1) :
    FiniteAll Cert.Pre_finite_inputs.Facts.bcast_S_S8x2048x1024 a0
    ∧ FiniteAll Cert.Pre_finite_inputs.Facts.bcast_S_S1024x1024 a1
    ∧ FiniteAll Cert.Pre_finite_inputs.Facts.bcast_S_S1024x1024 a2
    ∧ FiniteAll Cert.Pre_finite_inputs.Facts.bcast_S_S1024x1024 a3
    ∧ FiniteAll Cert.Pre_finite_inputs.Facts.bcast_S_S1024x1024 a4
    ∧ FiniteAll Cert.Pre_finite_inputs.Facts.bcast_S_S1024 a5
    ∧ NonzeroAll (Cert.ReferenceIdeal.Read.val_main_v26 (F := F) a0 a1 a2) := by
  have h := congrFun h ix0
  dsimp only [Cert.Pre_finite_inputs.fn, Cert.Pre_finite_inputs.fn_part1, Cert.Pre_finite_inputs.fn_part2,
    Cert.Pre_finite_inputs.fn_part3] at h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  exact ⟨Host.reduce_andi_all _ _ _ _ _ h1, Host.reduce_andi_all _ _ _ _ _ h2, Host.reduce_andi_all _ _ _ _ _ h3,
    Host.reduce_andi_all _ _ _ _ _ h4, Host.reduce_andi_all _ _ _ _ _ h5, Host.reduce_andi_all _ _ _ _ _ h6,
    Host.reduce_andi_all _ _ _ _ _ h7⟩

end Split

theorem ofBits_inf : Ideal.ofBits .f32 0x7F800000#32 = (⊤ : EReal) := by
  simp [Ideal.ofBits, Ideal.ieee]

theorem real_of_abs_lt_top (v : EReal) (h : max v (-v) < ⊤) : ∃ r : ℝ, v = (r : EReal) := by
  induction v using EReal.rec with
  | bot => simp at h
  | coe r => exact ⟨r, rfl⟩
  | top => simp at h

theorem lt_of_cmp_olt {u v : EReal} (h : Ideal.cmp .olt u v = 1#1) : u < v :=
  of_decide_eq_true ((StableHlo.Predicate.ofBool_eq_one_iff _).1 h)

theorem ne_of_cmp_une {u v : EReal} (h : Ideal.cmp .une u v = 1#1) : u ≠ v :=
  of_decide_eq_true ((StableHlo.Predicate.ofBool_eq_one_iff _).1 h)

theorem finite_entry {s : Shape} (hb : Cert.Pre_finite_inputs.S_.BroadcastsInDim s ![]) (a : FVec Ideal s .f32)
    (hf : FiniteAll hb a) (i : s.Idx) : ∃ r : ℝ, a i = (r : EReal) := by
  refine real_of_abs_lt_top (a i) ?_
  have hB : broadcastInDim s ![] hb (constant (F := Ideal) Cert.Pre_finite_inputs.S_ .f32 0x7F800000#32) i
      = (⊤ : EReal) := by
    rw [StableHlo.Predicate.bcast_scalar hb (by decide)]
    exact ofBits_inf
  have hlt := lt_of_cmp_olt (hf i)
  rw [hB] at hlt
  exact hlt

theorem pre_decode (a0 : FVec Ideal Cert.Pre_finite_inputs.S8x2048x1024 .f32)
    (a1 a2 a3 a4 : FVec Ideal Cert.Pre_finite_inputs.S1024x1024 .f32) (a5 : FVec Ideal Cert.Pre_finite_inputs.S1024 .f32)
    (h : Cert.Pre_finite_inputs.fn (F := Ideal) a0 a1 a2 a3 a4 a5 = fun _ => 1#1) :
    ∃ (x : Fin 8 → Fin 2048 → Fin 1024 → ℝ) (Wq Wk Wv Wo : Fin 1024 → Fin 1024 → ℝ) (bo : Fin 1024 → ℝ),
      a0 = up3 x ∧ a1 = up2 Wq ∧ a2 = up2 Wk ∧ a3 = up2 Wv ∧ a4 = up2 Wo ∧ a5 = up1 bo
      ∧ ∀ b i, denom (projThenScale x Wq) (projThenScale x Wk) b i ≠ 0 := by
  obtain ⟨f0, f1, f2, f3, f4, f5, f6⟩ := fn_split a0 a1 a2 a3 a4 a5 h
  choose r0 hr0 using finite_entry _ a0 f0
  choose r1 hr1 using finite_entry _ a1 f1
  choose r2 hr2 using finite_entry _ a2 f2
  choose r3 hr3 using finite_entry _ a3 f3
  choose r4 hr4 using finite_entry _ a4 f4
  choose r5 hr5 using finite_entry _ a5 f5
  have e0 : a0 = up3 (fun b t c => r0 (ix3 b t c)) := by
    funext j
    obtain ⟨b, t, c, rfl⟩ : ∃ (b : Fin 8) (t : Fin 2048) (c : Fin 1024), j = ix3 b t c := ⟨j 0, j 1, j 2, eq_ix3 j⟩
    exact hr0 _
  have e1 : a1 = up2 (fun d c => r1 (ix2 d c)) := by
    funext j
    obtain ⟨d, c, rfl⟩ : ∃ (d : Fin 1024) (c : Fin 1024), j = ix2 d c := ⟨j 0, j 1, eq_ix2 j⟩
    exact hr1 _
  have e2 : a2 = up2 (fun d c => r2 (ix2 d c)) := by
    funext j
    obtain ⟨d, c, rfl⟩ : ∃ (d : Fin 1024) (c : Fin 1024), j = ix2 d c := ⟨j 0, j 1, eq_ix2 j⟩
    exact hr2 _
  have e3 : a3 = up2 (fun d c => r3 (ix2 d c)) := by
    funext j
    obtain ⟨d, c, rfl⟩ : ∃ (d : Fin 1024) (c : Fin 1024), j = ix2 d c := ⟨j 0, j 1, eq_ix2 j⟩
    exact hr3 _
  have e4 : a4 = up2 (fun d c => r4 (ix2 d c)) := by
    funext j
    obtain ⟨d, c, rfl⟩ : ∃ (d : Fin 1024) (c : Fin 1024), j = ix2 d c := ⟨j 0, j 1, eq_ix2 j⟩
    exact hr4 _
  have e5 : a5 = up1 (fun e => r5 (ix1 e)) := by
    funext j
    obtain ⟨e, rfl⟩ : ∃ (e : Fin 1024), j = ix1 e := ⟨j 0, eq_ix1 j⟩
    exact hr5 _
  refine ⟨_, _, _, _, _, _, e0, e1, e2, e3, e4, e5, ?_⟩
  intro b i hz
  rw [e0, e1, e2] at f6
  refine ne_of_cmp_une (f6 (ix3 b i (0 : Fin 1))) ?_
  rw [v26_apply, hz, StableHlo.Predicate.bcast_scalar _ (by decide)]
  exact Cert.Consts.ofBits_zero.symm

end Cert.ReferenceIdeal.RefValue

end
-- ==== Proof.lean ====
/- Over real inputs with a nonzero divisor, the three tiled regions (projection, causal attention normalised by row sums,
   output projection) and the reference compute one real array: sums regroup by tiles, and dividing before or after contracting agrees. -/
import proofs.«149348_j7679401525936_1_alg».proof.Defs
import proofs.«149348_j7679401525936_1_alg».proof.Proof.Gen.Kernel
import proofs.«149348_j7679401525936_1_alg».proof.Proof.Gen.KernelIdeal
import proofs.«149348_j7679401525936_1_alg».proof.Proof.Gen.ReferenceIdeal
import proofs.«149348_j7679401525936_1_alg».proof.Proof.Gen.Pre_finite_inputs
import proofs.«149348_j7679401525936_1_alg».proof.Proof.K.Run
import proofs.«149348_j7679401525936_1_alg».proof.Proof.KI.Run
import proofs.«149348_j7679401525936_1_alg».proof.Proof.Val.KVal
import proofs.«149348_j7679401525936_1_alg».proof.Proof.Val.RefVal
import proofs.«149348_j7679401525936_1_alg».proof.Proof.Val.PreDec
import proofs.«149348_j7679401525936_1_alg».proof.Proof.Val.Alg
import Idealize.ShloMosaic.Adequacy
import Idealize.ShloMosaic.Init

noncomputable section

namespace Cert.Proof

open Idealize.ShloMosaic Idealize.SL.Sem Cert.Spec

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hdec := fun c => Cert.ReferenceIdeal.RefValue.pre_decode _ _ _ _ _ _ (hpre c)
  choose x Wq Wk Wv Wo bo h0 h1 h2 h3 h4 h5 hD using hdec
  refine ⟨fun c => up3 (kernelOut (x c) (Wq c) (Wk c) (Wv c) (Wo c) (bo c)), ?_, ?_⟩
  · refine (θ_run Cert.KernelIdeal.defs _ _).mono (fun r h c => ?_) (Cert.KernelIdeal.Hand.run_all (F := Ideal) m ρ)
    refine ⟨(h c _ (Cert.KernelIdeal.Hand.mem_uc Cert.KernelIdeal.main_v19 (by decide))).trans
        (Cert.KernelIdeal.Val.kernel_value m ρ c (x c) (Wq c) (Wk c) (Wv c) (Wo c) (bo c) (h0 c) (h1 c) (h2 c) (h3 c) (h4 c) (h5 c)
          (by rw [Cert.KernelIdeal.Val.denom_scaledW]; exact hD c)),
      Cert.KernelIdeal.Hand.arg_kept m ρ c (h c) (b := Cert.KernelIdeal.main_arg0) (by decide),
      Cert.KernelIdeal.Hand.arg_kept m ρ c (h c) (b := Cert.KernelIdeal.main_arg1) (by decide),
      Cert.KernelIdeal.Hand.arg_kept m ρ c (h c) (b := Cert.KernelIdeal.main_arg2) (by decide),
      Cert.KernelIdeal.Hand.arg_kept m ρ c (h c) (b := Cert.KernelIdeal.main_arg3) (by decide),
      Cert.KernelIdeal.Hand.arg_kept m ρ c (h c) (b := Cert.KernelIdeal.main_arg4) (by decide),
      Cert.KernelIdeal.Hand.arg_kept m ρ c (h c) (b := Cert.KernelIdeal.main_arg5) (by decide)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v33_eq, (hagree c).1, (hagree c).2.1, (hagree c).2.2.1, (hagree c).2.2.2.1,
      (hagree c).2.2.2.2.1, (hagree c).2.2.2.2.2, h0 c, h1 c, h2 c, h3 c, h4 c, h5 c,
      Cert.ReferenceIdeal.RefValue.ref_value _ _ _ _ _ _ (hD c)]
    exact (congrArg up3 (Cert.KernelIdeal.Val.kernelOut_eq_referenceOut _ _ _ _ _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
